-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x128 .f32) (main_arg7 : FVec F S64x128 .f32) (main_arg8 : FVec F S64 .f32) (main_arg9 : FVec F S64x64 .f32) (main_arg10 : FVec F S64x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S100000 32) (main_arg3 : FVec F S128x128 .f32) (main_arg4 : FVec F S128x128 .f32) (main_arg5 : FVec F S128 .f32) (main_arg6 : FVec F S64x128 .f32) (main_arg7 : FVec F S64x128 .f32) (main_arg8 : FVec F S64 .f32) (main_arg9 : FVec F S64x64 .f32) (main_arg10 : FVec F S64x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1x128 : Shape := ⟨2, ![1, 128]⟩
abbrev S1600000x64 : Shape := ⟨2, ![1600000, 64]⟩
abbrev S1x64 : Shape := ⟨2, ![1, 64]⟩
abbrev S100096x64 : Shape := ⟨2, ![100096, 64]⟩
abbrev S100096 : Shape := ⟨1, ![100096]⟩
abbrev S1x100096 : Shape := ⟨2, ![1, 100096]⟩
abbrev S5888x64 : Shape := ⟨2, ![5888, 64]⟩
abbrev S1x5888 : Shape := ⟨2, ![1, 5888]⟩
abbrev S128x1 : Shape := ⟨2, ![128, 1]⟩
abbrev S128x5888 : Shape := ⟨2, ![128, 5888]⟩

abbrev nBuf : Space → Nat
  | .hbm => 80
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S128x128, .f32⟩
  | .hbm, ⟨33, _⟩ => ⟨S128x64, .f32⟩
  | .hbm, ⟨34, _⟩ => ⟨S100000x128, .bf16⟩
  | .hbm, ⟨35, _⟩ => ⟨S100000x64, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .bf16⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S128x64, .f32⟩
  | .hbm, ⟨51, _⟩ => ⟨S64x64, .f32⟩
  | .hbm, ⟨52, _⟩ => ⟨S100000x64, .bf16⟩
  | .hbm, ⟨53, _⟩ => ⟨S100000x64, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S64x64, .f32⟩
  | .hbm, ⟨69, _⟩ => ⟨S_, .i32⟩
  | .hbm, ⟨70, _⟩ => ⟨S_, .f32⟩
  | .hbm, ⟨71, _⟩ => ⟨S100096x64, .f32⟩
  | .hbm, ⟨72, _⟩ => ⟨S_, .i32⟩
  | .hbm, ⟨73, _⟩ => ⟨S_, .bf16⟩
  | .hbm, ⟨74, _⟩ => ⟨S100096x64, .bf16⟩
  | .hbm, ⟨75, _⟩ => ⟨S_, .i32⟩
  | .hbm, ⟨76, _⟩ => ⟨S_, .i32⟩
  | .hbm, ⟨77, _⟩ => ⟨S100096, .i32⟩
  | .hbm, ⟨78, _⟩ => ⟨S1x100096, .i32⟩
  | .hbm, ⟨79, _⟩ => ⟨S128x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x64, .f32⟩
  | .local _ .vmem, ⟨8, _⟩ => ⟨S5000x128, .bf16⟩
  | .local _ .vmem, ⟨9, _⟩ => ⟨S5000x128, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .f32⟩
  | .local _ .vmem, ⟨13, _⟩ => ⟨S5000x64, .f32⟩
  | .local _ .vmem, ⟨14, _⟩ => ⟨S5000x128, .bf16⟩
  | .local _ .vmem, ⟨15, _⟩ => ⟨S5000x128, .bf16⟩
  | .local _ .vmem, ⟨16, _⟩ => ⟨S128x64, .f32⟩
  | .local _ .vmem, ⟨17, _⟩ => ⟨S64, .f32⟩
  | .local _ .vmem, ⟨18, _⟩ => ⟨S64x64, .f32⟩
  | .local _ .vmem, ⟨19, _⟩ => ⟨S5000x64, .bf16⟩
  | .local _ .vmem, ⟨20, _⟩ => ⟨S5000x64, .bf16⟩
  | .local _ .vmem, ⟨21, _⟩ => ⟨S5000x64, .bf16⟩
  | .local _ .vmem, ⟨22, _⟩ => ⟨S5000x64, .bf16⟩
  | .local _ .vmem, ⟨23, _⟩ => ⟨S5888x64, .f32⟩
  | .local _ .vmem, ⟨24, _⟩ => ⟨S5888x64, .f32⟩
  | .local _ .vmem, ⟨25, _⟩ => ⟨S5888x64, .bf16⟩
  | .local _ .vmem, ⟨26, _⟩ => ⟨S5888x64, .bf16⟩
  | .local _ .vmem, ⟨27, _⟩ => ⟨S64x64, .f32⟩
  | .local _ .vmem, ⟨28, _⟩ => ⟨S64, .f32⟩
  | .local _ .vmem, ⟨29, _⟩ => ⟨S1x5888, .i32⟩
  | .local _ .vmem, ⟨30, _⟩ => ⟨S1x5888, .i32⟩
  | .local _ .vmem, ⟨31, _⟩ => ⟨S128x64, .f32⟩
  | .local _ .vmem, ⟨32, _⟩ => ⟨S128x64, .f32⟩
  | .local _ .vmem, ⟨33, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_call0_v0 : Ref sig .tc := ⟨.hbm, 70, rfl⟩
abbrev main_v46 : Ref sig .tc := ⟨.hbm, 71, rfl⟩
abbrev main_c_8 : Ref sig .tc := ⟨.hbm, 72, rfl⟩
abbrev main_call1_v0 : Ref sig .tc := ⟨.hbm, 73, rfl⟩
abbrev main_v47 : Ref sig .tc := ⟨.hbm, 74, rfl⟩
abbrev main_c_9 : Ref sig .tc := ⟨.hbm, 75, rfl⟩
abbrev main_call2_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_scratch0 : Ref sig .tc := ⟨.vmem, 32, rfl⟩
abbrev cc2_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![17], ![false]⟩

def k2_cond2 (i : grid2.Coords) : BitVec 1 :=
  let arg0 : BitVec 32 := BitVec.ofNat 32 (i 0).val
  let c16_i32 : BitVec 32 := 16#32
  let v42 : BitVec 1 := Scalar.cmpi .eq arg0 c16_i32
  let v43 : BitVec 32 := Scalar.extui v42
  let c0_i32_20 : BitVec 32 := 0#32
  let v44 : BitVec 1 := Scalar.cmpi .ne v43 c0_i32_20
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5888x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5888x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x5888 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  transposes_S64x64_S64x64_1_0 : S64x64.Transposes [1, 0] S64x64
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  pads_S100000x64_S100096x64_0960_000 : S100000x64.Pads (![0, 0] : Fin 2 → Nat) ![96, 0] ![0, 0] S100096x64
  h_S_ : 0 < S_.numel
  pads_S100000_S100096_0960 : S100000.Pads (![0] : Fin 1 → Nat) ![96] ![0] S100096
  shapeCasts_S100096_S1x100096 : S100096.ShapeCasts S1x100096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5888x64_S5888x64_0_0 : ∀ a, (![0, 0] : Fin 2 → Nat) a + S5888x64.size a ≤ S5888x64.size a
  h_S5888x64 : 0 < S5888x64.numel
  shapeCasts_S5888x64_S5888x64 : S5888x64.ShapeCasts S5888x64
  broadcasts_S1x64_S5888x64 : S1x64.Broadcasts S5888x64
  iota_S128x5888_d0_w32 : S128x5888.Iotas .tc 32 [0]
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  broadcasts_S1x5888_S128x5888 : S1x5888.Broadcasts S128x5888
  natLt_1_32 : 1 < 32
  reduces_S128x5888_S128 : S128x5888.Reduces [1] S128
  shapeCasts_S128_S128x1 : S128.ShapeCasts S128x1
  broadcasts_S128x1_S128x64 : S128x1.Broadcasts S128x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5888x64_S64x64_S5888x64_1_0_0_1_n_n_wf : DotDims.WF S5888x64 S64x64 S5888x64 [1] [0] [0] [1] [] []
  dot_S128x5888_S5888x64_S128x64_1_0_0_1_n_n_wf : DotDims.WF S128x5888 S5888x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .bf16 = 32 ∨ (Rect.block (s := S100000x64) S5000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5888x64.size a ≤ S100096x64.size a
  hwx2_0 : ∀ i : grid2.Coords, EltTy.bits .f32 = 32 ∨ (Rect.block (s := S100096x64) S5888x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5888x64.size a ≤ S100096x64.size a
  hwx2_1 : ∀ i : grid2.Coords, EltTy.bits .bf16 = 32 ∨ (Rect.block (s := S100096x64) S5888x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x5888.size a ≤ S1x100096.size a
  hwx2_4 : ∀ i : grid2.Coords, EltTy.bits .i32 = 32 ∨ (Rect.block (s := S1x100096) S1x5888.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5888x64_S64x64_S5888x64_1_0_0_1_n_n : DotDims S5888x64 S64x64 S5888x64 where
  lhsContracting := [1]
  rhsContracting := [0]
  lhsNonContracting := [0]
  rhsNonContracting := [1]
  lhsBatch := []
  rhsBatch := []
  wf := dot_S5888x64_S64x64_S5888x64_1_0_0_1_n_n_wf
def dot_S128x5888_S5888x64_S128x64_1_0_0_1_n_n : DotDims S128x5888 S5888x64 S128x64 where
  lhsContracting := [1]
  rhsContracting := [0]
  lhsNonContracting := [0]
  rhsNonContracting := [1]
  lhsBatch := []
  rhsBatch := []
  wf := dot_S128x5888_S5888x64_S128x64_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5888x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5888x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x5888.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v50) S128x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S128x1 : Shape := ⟨2, ![128, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S128x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S128x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S64x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S128x64, .f32⟩
  | .hbm, ⟨90, _⟩ => ⟨S100000x1, .i32⟩
  | .hbm, ⟨91, _⟩ => ⟨S128x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S128, .f32⟩
  | .hbm, ⟨96, _⟩ => ⟨S100000x1, .i32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128x1, .f32⟩
  | .hbm, ⟨102, _⟩ => ⟨S128x64, .f32⟩
  | .hbm, ⟨103, _⟩ => ⟨S128x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_cst : Ref sig .tc := ⟨.hbm, 85, rfl⟩
abbrev main_call2_v0 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.BReg0.lean ====
import proofs.«425611_j42314017800422_2_alg».proof.Proof.Gen.Kernel.Launch
import proofs.«425611_j42314017800422_2_alg».proof.Proof.Gen.Kernel.Skeleton
import proofs.«425611_j42314017800422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit ![0, 0] S5000x128.size inb_S5000x128_S5000x128_0_0
abbrev rW0 : Rect S128x128 := Rect.unit ![0, 0] S128x128.size inb_S128x128_S128x128_0_0
abbrev rB0 : Rect S128 := Rect.unit ![0] S128.size inb_S128_S128_0
abbrev rP0 : Rect S128x64 := Rect.unit ![0, 0] S128x64.size inb_S128x64_S128x64_0_0
abbrev rZ0 : Rect S5000x64 := Rect.unit ![0, 0] S5000x64.size inb_S5000x64_S5000x64_0_0

def out0_6 (x0 x1 : Vec F S5000x128 .f32) (x2 x3 : Vec F S128x128 .f32) (x4 : Vec F S128 .f32) : Vec F S5000x128 .bf16 :=
  View.canon [⟨rA0, k0_pay1 (View.ld x0 rA0) (View.ld x1 rA0) (View.ld x2 rW0) (View.ld x3 rW0) (View.ld x4 rB0)⟩]
def out0_7 (x0 x1 : Vec F S5000x128 .f32) (x2 x3 : Vec F S128x128 .f32) (x4 : Vec F S128 .f32) (x5 : Vec F S128x64 .f32) : Vec F S5000x64 .bf16 :=
  View.canon [⟨rZ0, k0_pay2 (View.ld x0 rA0) (View.ld x1 rA0) (View.ld x2 rW0) (View.ld x3 rW0) (View.ld x4 rB0) (View.ld x5 rP0)⟩]

-- One store through the whole rectangle covers an output, so what it leaves there is that store's payload, whatever was there before.
theorem sound_kernel0 (c : Dev nD) {E : Set ℕ} {i : grid0.Coords}
    {arg1 arg2 : Memref sig .tc .vmem S5000x128 .f32} {arg3 arg4 : Memref sig .tc .vmem S128x128 .f32} {arg5 : Memref sig .tc .vmem S128 .f32}
    {arg6 : Memref sig .tc .vmem S128x64 .f32} {arg7 : Memref sig .tc .vmem S5000x128 .bf16} {arg8 : Memref sig .tc .vmem S5000x64 .bf16}
    {harg1 : arg1.IsWhole} {harg2 : arg2.IsWhole} {harg3 : arg3.IsWhole} {harg4 : arg4.IsWhole} {harg5 : arg5.IsWhole} {harg6 : arg6.IsWhole}
    {harg7 : arg7.IsWhole} {harg8 : arg8.IsWhole} {x0 x1 : Vec F S5000x128 .f32} {x2 x3 : Vec F S128x128 .f32} {x4 : Vec F S128 .f32}
    {x5 : Vec F S128x64 .f32} {d6 : Vec F S5000x128 .bf16} {d7 : Vec F S5000x64 .bf16} (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare d6 ∗ owns c arg8 fullShare d7
        ∗ (iprop(owns c arg1 fullShare x0 ∗ owns c arg2 fullShare x1 ∗ owns c arg3 fullShare x2 ∗ owns c arg4 fullShare x3
            ∗ owns c arg5 fullShare x4 ∗ owns c arg6 fullShare x5
            ∗ owns c arg7 fullShare (out0_6 x0 x1 x2 x3 x4) ∗ owns c arg8 fullShare (out0_7 x0 x1 x2 x3 x4 x5)) -∗ K ⟨⟩))
      ⊢ wp frame (wpE defs₀ Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (View.cover_of_tiled _ S5000x128.size (by rfl))
  iexists _; isplitr
  swap; · iexact H7
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

-- For an input window, what the body finds equals what it leaves: both are the array's block at the point's index.
theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ => fun t d =>
    ((dat0 V c).before_in_eq_fetched _ rfl (fun _ => rfl) (fun _ _ _ => rfl) (fun _ => rfl) t d).trans rfl
  | ⟨6, _⟩, h | ⟨7, _⟩, h => nomatch h

theorem body_obligation0 (c : Dev nD) : BodyObligation (dat0 (F := F) V c) (defs₀ (F := F)) Variants.none () Set.univ := fun t => by
  rw [bigSep_W0, bigSep_W0]
  simp +decide only [before0 V c]
  dsimp only [dat0, Dat.owesAt, Dat.bound]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel0 c
  iframe
  iintro H
  iexact H

end Region

end Cert.Kernel.Reg

end
-- ==== Proof.BReg1.lean ====
import proofs.«425611_j42314017800422_2_alg».proof.Proof.Gen.Kernel.Launch
import proofs.«425611_j42314017800422_2_alg».proof.Proof.Gen.Kernel.Skeleton
import proofs.«425611_j42314017800422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rZ1 : Rect S5000x64 := Rect.unit ![0, 0] S5000x64.size inb_S5000x64_S5000x64_0_0
abbrev rA1 : Rect S5000x128 := Rect.unit ![0, 0] S5000x128.size inb_S5000x128_S5000x128_0_0
abbrev rP1 : Rect S128x64 := Rect.unit ![0, 0] S128x64.size inb_S128x64_S128x64_0_0
abbrev rB1 : Rect S64 := Rect.unit ![0] S64.size inb_S64_S64_0
abbrev rW1 : Rect S64x64 := Rect.unit ![0, 0] S64x64.size inb_S64x64_S64x64_0_0

def out1_5 (x0 : Vec F S5000x64 .f32) (x1 : Vec F S5000x128 .bf16) (x2 : Vec F S128x64 .f32) (x3 : Vec F S64 .f32) : Vec F S5000x64 .bf16 :=
  View.canon [⟨rZ1, k1_pay1 (View.ld x0 rZ1) (View.ld x1 rA1) (View.ld x2 rP1) (View.ld x3 rB1)⟩]
def out1_6 (x0 : Vec F S5000x64 .f32) (x1 : Vec F S5000x128 .bf16) (x2 : Vec F S128x64 .f32) (x3 : Vec F S64 .f32) (x4 : Vec F S64x64 .f32) : Vec F S5000x64 .bf16 :=
  View.canon [⟨rZ1, k1_pay2 (View.ld x0 rZ1) (View.ld x1 rA1) (View.ld x2 rP1) (View.ld x3 rB1) (View.ld x4 rW1)⟩]

-- One store through the whole rectangle covers an output, so what it leaves there is that store's payload, whatever was there before.
theorem sound_kernel1 (c : Dev nD) {E : Set ℕ} {i : grid1.Coords}
    {arg1 : Memref sig .tc .vmem S5000x64 .f32} {arg2 : Memref sig .tc .vmem S5000x128 .bf16} {arg3 : Memref sig .tc .vmem S128x64 .f32}
    {arg4 : Memref sig .tc .vmem S64 .f32} {arg5 : Memref sig .tc .vmem S64x64 .f32} {arg6 arg7 : Memref sig .tc .vmem S5000x64 .bf16}
    {harg1 : arg1.IsWhole} {harg2 : arg2.IsWhole} {harg3 : arg3.IsWhole} {harg4 : arg4.IsWhole} {harg5 : arg5.IsWhole} {harg6 : arg6.IsWhole}
    {harg7 : arg7.IsWhole} {x0 : Vec F S5000x64 .f32} {x1 : Vec F S5000x128 .bf16} {x2 : Vec F S128x64 .f32} {x3 : Vec F S64 .f32}
    {x4 : Vec F S64x64 .f32} {d5 d6 : Vec F S5000x64 .bf16} (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare d5 ∗ owns c arg7 fullShare d6
        ∗ (iprop(owns c arg1 fullShare x0 ∗ owns c arg2 fullShare x1 ∗ owns c arg3 fullShare x2 ∗ owns c arg4 fullShare x3
            ∗ owns c arg5 fullShare x4
            ∗ owns c arg6 fullShare (out1_5 x0 x1 x2 x3) ∗ owns c arg7 fullShare (out1_6 x0 x1 x2 x3 x4)) -∗ K ⟨⟩))
      ⊢ wp frame (wpE defs₀ Variants.none c none) E (cc1__layer2_kernel i arg1 harg1 arg2 harg2 arg3 harg3 arg4 harg4 arg5 harg5 arg6 harg6 arg7 harg7) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (View.cover_of_tiled _ S5000x64.size (by rfl))
  iexists _; isplitr
  swap; · iexact H6
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

-- For an input window, what the body finds equals what it leaves: both are the array's block at the point's index.
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ => fun t d =>
    ((dat1 V c).before_in_eq_fetched _ rfl (fun _ => rfl) (fun _ _ _ => rfl) (fun _ => rfl) t d).trans rfl
  | ⟨5, _⟩, h | ⟨6, _⟩, h => nomatch h

theorem body_obligation1 (c : Dev nD) : BodyObligation (dat1 (F := F) V c) (defs₀ (F := F)) Variants.none () Set.univ := fun t => by
  rw [bigSep_W1, bigSep_W1]
  simp +decide only [before1 V c]
  dsimp only [dat1, Dat.owesAt, Dat.bound]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel1 c
  iframe
  iintro H
  iexact H

end Region

end Cert.Kernel.Reg

end
-- ==== Proof.BReg2Run.lean ====
import proofs.«425611_j42314017800422_2_alg».proof.Proof.Gen.Kernel.Launch
import proofs.«425611_j42314017800422_2_alg».proof.Proof.Gen.Kernel.Skeleton
import proofs.«425611_j42314017800422_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 17 = 0 :=
  (by decide +kernel : ∀ t : Fin grid2.N, cond2_0 (grid2.coords t) ↔ t.val % 17 = 0)
abbrev cond2_1 (i : grid2.Coords) : Prop := k2_cond2 i = 1#1
theorem hcond2_1 : ∀ t : Fin cfg2.N, cond2_1 (grid2.coords t) ↔ t.val % 17 = 16 :=
  (by decide +kernel : ∀ t : Fin grid2.N, cond2_1 (grid2.coords t) ↔ t.val % 17 = 16)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_5 : View sig .tc .vmem S128x64 .f32 := (Memref.whole cc2_stg5_0 : Memref sig .tc .vmem S128x64 .f32).view
abbrev ms2_0 (t : Fin cfg2.N) : Memref sig .tc .vmem S5888x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5888x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x5888 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x64 .f32 := win2_5.stage (cfg2.slots t 5)
abbrev hs2_5 (t : Fin cfg2.N) : (ms2_5 t).IsWhole := hstage2_5 ((cfg2.slots t 5).cast nbuf2_5)
abbrev scM2_0 : Memref sig .tc .vmem S128x64 .f32 := Memref.whole cc2_scratch0
abbrev scM2_1 : Memref sig .tc .vmem S128x1 .f32 := Memref.whole cc2_scratch1
abbrev VS2_0 : View sig .tc .vmem S128x64 .f32 := scM2_0.view
abbrev VS2_1 : View sig .tc .vmem S128x1 .f32 := scM2_1.view

theorem owns_unread (c : Dev nD) {sh : Shape} {e : EltTy} {m : Memref sig .tc .vmem sh e} (h : m.IsWhole) (X : Vec F sh e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X) ⊢ (owns (c : Thread nD τ) m fullShare X : sProp 𝕄) := by
    unfold owns; iintro H; iexists _; isplitr; · ipureintro; exact h.read_unread _
    iexact H
  exact BI.equiv_iff.mp ⟨h₁, h₂⟩

variable (c : Dev nD) (i : grid2.Coords) (arg1 : Memref sig .tc .vmem S5888x64 .f32) (harg1 : arg1.IsWhole) (arg2 : Memref sig .tc .vmem S5888x64 .bf16) (harg2 : arg2.IsWhole) (arg3 : Memref sig .tc .vmem S64x64 .f32) (harg3 : arg3.IsWhole) (arg4 : Memref sig .tc .vmem S64 .f32) (harg4 : arg4.IsWhole) (arg5 : Memref sig .tc .vmem S1x5888 .i32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x1 .f32) (harg8 : arg8.IsWhole)

set_option maxHeartbeats 4000000 in
/-- The first point: the accumulators start at anything and end at the listed stores; the result's buffer comes back as found. -/
noncomputable def kernelRun2_A (hc0 : cond2_0 i) (hc1 : ¬cond2_1 i)
    (x0 : Vec F S5888x64 .f32) (x1 : Vec F S5888x64 .bf16) (x2 : Vec F S64x64 .f32) (x3 : Vec F S64 .f32) (x4 : Vec F S1x5888 .i32) :
    Σ' (L5 : List (View.Piece (Elt F) S128x64 .f32)) (LS0 : List (View.Piece (Elt F) S128x64 .f32)), { LS1 : List (View.Piece (Elt F) S128x1 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, H5, ⟨%d0, HS0⟩, ⟨%d1, HS1⟩, Hk⟩
    sl_exec (disch := first | exact hc0 | exact hc1)
    sl_step
    iapply Hk
    iframe H0 H1 H2 H3 H4 H5
    isplitl [HS0]; · iexists _; iexact HS0
    iexists _; iexact HS1

set_option maxHeartbeats 4000000 in
/-- A point in between: as the first, but from what the point before left in the accumulators. -/
noncomputable def kernelRun2_B (hc0 : ¬cond2_0 i) (hc1 : ¬cond2_1 i)
    (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32) :
    Σ' (L5 : List (View.Piece (Elt F) S128x64 .f32)) (LS0 : List (View.Piece (Elt F) S128x64 .f32)), { LS1 : List (View.Piece (Elt F) S128x1 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, H5, HS0, HS1, Hk⟩
    sl_exec (disch := first | exact hc0 | exact hc1)
    sl_step
    iapply Hk
    iframe H0 H1 H2 H3 H4 H5
    isplitl [HS0]; · iexists _; iexact HS0
    iexists _; iexact HS1

set_option maxHeartbeats 4000000 in
/-- The last point: as in between, and the result's buffer, found at anything, ends at the listed stores. -/
noncomputable def kernelRun2_C (hc0 : ¬cond2_0 i) (hc1 : cond2_1 i)
    (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32) :
    Σ' (L5 : List (View.Piece (Elt F) S128x64 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨?_, ?_, ?_, fun E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, ⟨%d5, H5⟩, HS0, HS1, Hk⟩
    sl_exec (disch := first | exact hc0 | exact hc1)
    sl_step
    iapply Hk
    iframe H0 H1 H2 H3 H4
    isplitl [H5]; · iexists _; iexact H5
    isplitl [HS0]; · iexists _; iexact HS0
    iexists _; iexact HS1

end Cert.Kernel.Reg

end
-- ==== Proof.BReg2.lean ====
import proofs.«425611_j42314017800422_2_alg».proof.Proof.BReg2Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev accs2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) :
    (Pipeline.ΦA spec2 c : sProp 𝕄) = accs2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; try rfl

/-- Stores that cover a buffer determine its contents, whatever it held before. -/
theorem owns_of_cover (c : Dev nD) {sh : Shape} {e : EltTy} {m : Memref sig .tc .vmem sh e} (v : View sig .tc .vmem sh e)
    {L : List (View.Piece (Elt F) sh e)} (h : ∀ y, ∃ p ∈ L, y ∈ p.1.set) :
    iprop(∃ f, m.view.loc (c : Thread nD τ) ↦[m.view.set]{fullShare} m.view.writes (Elt F) f L)
      ⊢ (owns (c : Thread nD τ) m fullShare (v.read (Elt F) (v.writes (Elt F) v.junk L)) : sProp 𝕄) := by
  unfold owns; iintro ⟨%f, H⟩; iexists m.view.writes (Elt F) f L; isplitr; · ipureintro; exact View.read_writes_of_cover _ _ _ _ _ h
  iexact H

section Args
variable (c : Dev nD) (i : grid2.Coords) (arg1 : Memref sig .tc .vmem S5888x64 .f32) (harg1 : arg1.IsWhole) (arg2 : Memref sig .tc .vmem S5888x64 .bf16) (harg2 : arg2.IsWhole) (arg3 : Memref sig .tc .vmem S64x64 .f32) (harg3 : arg3.IsWhole) (arg4 : Memref sig .tc .vmem S64 .f32) (harg4 : arg4.IsWhole) (arg5 : Memref sig .tc .vmem S1x5888 .i32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x1 .f32) (harg8 : arg8.IsWhole)

section A
variable (hc0 : cond2_0 i) (hc1 : ¬cond2_1 i) (x0 : Vec F S5888x64 .f32) (x1 : Vec F S5888x64 .bf16) (x2 : Vec F S64x64 .f32) (x3 : Vec F S64 .f32) (x4 : Vec F S1x5888 .i32)

def out2_A_5 : Vec F S128x64 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3 x4).1)
theorem scover2_A_0 (y : S128x64.Idx) : ∃ pc ∈ (kernelRun2_A c i arg1 harg1 arg2 harg2 arg3 harg3 arg4 harg4 arg5 harg5 arg6 harg6 arg7 harg7 arg8 harg8 hc0 hc1 x0 x1 x2 x3 x4).2.1, y ∈ pc.1.set :=
  View.cover_of_tiledL _ S128x64.size (by sl_kernel_rfl) y
def sout2_A_0 : Vec F S128x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4).2.1)
theorem scover2_A_1 (y : S128x1.Idx) : ∃ pc ∈ (kernelRun2_A c i arg1 harg1 arg2 harg2 arg3 harg3 arg4 harg4 arg5 harg5 arg6 harg6 arg7 harg7 arg8 harg8 hc0 hc1 x0 x1 x2 x3 x4).2.2.1, y ∈ pc.1.set :=
  View.cover_of_tiledL _ S128x1.size (by sl_kernel_rfl) y
def sout2_A_1 : Vec F S128x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3 x4).2.2.1)

end A

section B
variable (hc0 : ¬cond2_0 i) (hc1 : ¬cond2_1 i) (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32)

def out2_B_5 : Vec F S128x64 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 x4 xs0 xs1).1)
theorem scover2_B_0 (y : S128x64.Idx) : ∃ pc ∈ (kernelRun2_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL _ S128x64.size (by sl_kernel_rfl) y
def sout2_B_0 : Vec F S128x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 xs0 xs1).2.1)
theorem scover2_B_1 (y : S128x1.Idx) : ∃ pc ∈ (kernelRun2_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL _ S128x1.size (by sl_kernel_rfl) y
def sout2_B_1 : Vec F S128x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 x4 xs0 xs1).2.2.1)

end B

section C
variable (hc0 : ¬cond2_0 i) (hc1 : cond2_1 i) (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32)

def out2_C_5 : Vec F S128x64 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 x4 xs0 xs1).1)
theorem cover2_C_5 (y : S128x64.Idx) : ∃ pc ∈ (kernelRun2_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL _ S128x64.size (by sl_kernel_rfl) y
theorem scover2_C_0 (y : S128x64.Idx) : ∃ pc ∈ (kernelRun2_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL _ S128x64.size (by sl_kernel_rfl) y
def sout2_C_0 : Vec F S128x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 xs0 xs1).2.1)
theorem scover2_C_1 (y : S128x1.Idx) : ∃ pc ∈ (kernelRun2_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL _ S128x1.size (by sl_kernel_rfl) y
def sout2_C_1 : Vec F S128x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 x4 xs0 xs1).2.2.1)

end C

end Args

/-- Which of the three cases point `t` is in, from its position. -/
theorem case2_A (t : Fin cfg2.N) (h0 : t.val % 17 = 0) : cond2_0 (grid2.coords t) ∧ ¬cond2_1 (grid2.coords t) :=
  ⟨(hcond2_0 t).mpr h0, fun h => by have := (hcond2_1 t).mp h; omega⟩
theorem case2_B (t : Fin cfg2.N) (h0 : ¬t.val % 17 = 0) (h1 : ¬t.val % 17 = 16) : ¬cond2_0 (grid2.coords t) ∧ ¬cond2_1 (grid2.coords t) :=
  ⟨fun h => h0 ((hcond2_0 t).mp h), fun h => h1 ((hcond2_1 t).mp h)⟩
theorem case2_C (t : Fin cfg2.N) (h0 : ¬t.val % 17 = 0) (h1 : t.val % 17 = 16) : ¬cond2_0 (grid2.coords t) ∧ cond2_1 (grid2.coords t) :=
  ⟨fun h => h0 ((hcond2_0 t).mp h), (hcond2_1 t).mpr h1⟩

section Region
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- `k` applied to the body's arguments at grid point `t`. -/
abbrev atPt2 {α : Sort _} {P Q : grid2.Coords → Prop} (c : Dev nD) (t : Fin cfg2.N)
    (k : ∀ (i : grid2.Coords) (arg1 : Memref sig .tc .vmem S5888x64 .f32) (_ : arg1.IsWhole) (arg2 : Memref sig .tc .vmem S5888x64 .bf16) (_ : arg2.IsWhole) (arg3 : Memref sig .tc .vmem S64x64 .f32) (_ : arg3.IsWhole) (arg4 : Memref sig .tc .vmem S64 .f32) (_ : arg4.IsWhole) (arg5 : Memref sig .tc .vmem S1x5888 .i32) (_ : arg5.IsWhole) (arg6 : Memref sig .tc .vmem S128x64 .f32) (_ : arg6.IsWhole) (arg7 : Memref sig .tc .vmem S128x64 .f32) (_ : arg7.IsWhole) (arg8 : Memref sig .tc .vmem S128x1 .f32) (_ : arg8.IsWhole), P i → Q i → Vec F S5888x64 .f32 → Vec F S5888x64 .bf16 → Vec F S64x64 .f32 → Vec F S64 .f32 → Vec F S1x5888 .i32 → α)
    (h0 : P (grid2.coords t)) (h1 : Q (grid2.coords t)) : α :=
  k (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) h0 h1 (iblk2 V c 0 t) (iblk2 V c 1 t) (iblk2 V c 2 t) (iblk2 V c 3 t) (iblk2 V c 4 t)

/-- What the result's buffer and the two accumulators hold after the body at position `n`: the point's case, run on its input blocks and, after the first point, on what position `n - 1` left in the accumulators. -/
def outsAt2 (c : Dev nD) : (n : ℕ) → n < cfg2.N → Vec F S128x64 .f32 × Vec F S128x64 .f32 × Vec F S128x1 .f32
  | 0, hn => (atPt2 V c ⟨0, hn⟩ (out2_A_5 c) (case2_A ⟨0, hn⟩ rfl).1 (case2_A ⟨0, hn⟩ rfl).2, atPt2 V c ⟨0, hn⟩ (sout2_A_0 c) (case2_A ⟨0, hn⟩ rfl).1 (case2_A ⟨0, hn⟩ rfl).2, atPt2 V c ⟨0, hn⟩ (sout2_A_1 c) (case2_A ⟨0, hn⟩ rfl).1 (case2_A ⟨0, hn⟩ rfl).2)
  | n + 1, hn =>
    let t : Fin cfg2.N := ⟨n + 1, hn⟩
    let p := (outsAt2 c n (Nat.lt_of_succ_lt hn)).2
    if h0 : (n + 1) % 17 = 0 then (atPt2 V c t (out2_A_5 c) (case2_A t h0).1 (case2_A t h0).2, atPt2 V c t (sout2_A_0 c) (case2_A t h0).1 (case2_A t h0).2, atPt2 V c t (sout2_A_1 c) (case2_A t h0).1 (case2_A t h0).2)
    else if h1 : (n + 1) % 17 = 16 then (atPt2 V c t (out2_C_5 c) (case2_C t h0 h1).1 (case2_C t h0 h1).2 p.1 p.2, atPt2 V c t (sout2_C_0 c) (case2_C t h0 h1).1 (case2_C t h0 h1).2 p.1 p.2, atPt2 V c t (sout2_C_1 c) (case2_C t h0 h1).1 (case2_C t h0 h1).2 p.1 p.2)
    else (atPt2 V c t (out2_B_5 c) (case2_B t h0 h1).1 (case2_B t h0 h1).2 p.1 p.2, atPt2 V c t (sout2_B_0 c) (case2_B t h0 h1).1 (case2_B t h0 h1).2 p.1 p.2, atPt2 V c t (sout2_B_1 c) (case2_B t h0 h1).1 (case2_B t h0 h1).2 p.1 p.2)

theorem outsAt2_A (c : Dev nD) (t : Fin cfg2.N) (h0 : t.val % 17 = 0) (h1 : ¬t.val % 17 = 16) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => rfl
  | succ n => exact (dif_pos h0).trans rfl

theorem outsAt2_B (c : Dev nD) (t : Fin cfg2.N) (h0 : ¬t.val % 17 = 0) (h1 : ¬t.val % 17 = 16) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 17 = 0) (h1 : t.val % 17 = 16) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- Between points the accumulators hold what the point before left. -/
def PhiS2 (c : Dev nD) : (n : ℕ) → n ≤ cfg2.N → sProp 𝕄
  | 0, _ => Pipeline.ΦA spec2 c
  | n + 1, hn => accs2 c iprop(owns (c : Thread nD τ) scM2_0 fullShare (outsAt2 V c n hn).2.1 ∗ owns (c : Thread nD τ) scM2_1 fullShare (outsAt2 V c n hn).2.2)

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = accs2 c iprop(owns (c : Thread nD τ) scM2_0 fullShare (outsAt2 V c (n - 1) (by omega)).2.1 ∗ owns (c : Thread nD τ) scM2_1 fullShare (outsAt2 V c (n - 1) (by omega)).2.2) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4800000 in
/-- The body at any point, by the case its position puts it in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  have hN : t.val < 17 := lt_of_lt_of_eq t.isLt (show cfg2.N = 17 from N_2)
  rw [show (dat2 V c).owesAt () t.succ = (dat2 V c).owesAt () t.castSucc from rfl,
    show (dat2 V c).Φ t.succ = accs2 c iprop(owns (c : Thread nD τ) scM2_0 fullShare (outsAt2 V c t.val t.isLt).2.1 ∗ owns (c : Thread nD τ) scM2_1 fullShare (outsAt2 V c t.val t.isLt).2.2) from rfl,
    show (dat2 V c).Φ t.castSucc = PhiS2 V c t.val (Nat.le_of_lt t.isLt) from by dsimp only [dat2]; simp only [Fin.coe_castSucc],
    show (dat2 V c).leavesExact 0 t = owns (c : Thread nD τ) (ms2_0 t) fullShare (iblk2 V c 0 t) from by unfold Dat.leavesExact; rw [liveAt2_0 t]; dsimp only [dat2],
    show (dat2 V c).leavesExact 1 t = owns (c : Thread nD τ) (ms2_1 t) fullShare (iblk2 V c 1 t) from by unfold Dat.leavesExact; rw [liveAt2_1 t]; dsimp only [dat2],
    show (dat2 V c).leavesExact 2 t = owns (c : Thread nD τ) (ms2_2 t) fullShare (iblk2 V c 2 t) from by unfold Dat.leavesExact; rw [liveAt2_2 t]; dsimp only [dat2],
    show (dat2 V c).leavesExact 3 t = owns (c : Thread nD τ) (ms2_3 t) fullShare (iblk2 V c 3 t) from by unfold Dat.leavesExact; rw [liveAt2_3 t]; dsimp only [dat2],
    show (dat2 V c).leavesExact 4 t = owns (c : Thread nD τ) (ms2_4 t) fullShare (iblk2 V c 4 t) from by unfold Dat.leavesExact; rw [liveAt2_4 t]; dsimp only [dat2]]
  by_cases h0 : t.val % 17 = 0
  · have hc := case2_A t h0
    rw [Dat.leavesExact_idle (dat2 V c) 5 t (idleAt2_5 t hc.2) (noFlush2_5 t hc.2), outsAt2_A V c t h0 (by omega),
      PhiS2_zero V c _ _ (by omega), PhiA2_eq]
    unfold sout2_A_0 sout2_A_1 accs2; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ hc.1 hc.2 (iblk2 V c 0 t) (iblk2 V c 1 t) (iblk2 V c 2 t) (iblk2 V c 3 t) (iblk2 V c 4 t)).2.2.2 ((dat2 V c).before 5 t d5) Set.univ _)
    iframe H0 H1 H2 H3 H4 H5 HS0 HS1
    iintro ⟨H0, H1, H2, H3, H4, H5, HS0, HS1⟩
    ihave HS0 := (owns_of_cover c VS2_0 (scover2_A_0 c _ _ _ _ _ _ _ _ _ _ _ _ _ _ _ _ _ _ _ _ _ _ _ _)) $$ HS0
    ihave HS1 := (owns_of_cover c VS2_1 (scover2_A_1 c _ _ _ _ _ _ _ _ _ _ _ _ _ _ _ _ _ _ _ _ _ _ _ _)) $$ HS1
    iframe HS0 HS1 Hrest Hg Ho H0 H1 H2 H3 H4
    iexists _; iexact H5
  · have hz : t.val ≠ 0 := fun h => h0 (by rw [h])
    rw [PhiS2_pos V c _ _ hz]
    by_cases h1 : t.val % 17 = 16
    · have hc := case2_C t h0 h1
      rw [show (dat2 V c).leavesExact 5 t = owns (c : Thread nD τ) (ms2_5 t) fullShare (outsAt2 V c t.val t.isLt).1 from by unfold Dat.leavesExact; rw [liveAt2_5 t hc.2]; dsimp only [dat2],
        outsAt2_C V c t h0 h1]
      unfold out2_C_5 sout2_C_0 sout2_C_1 accs2; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc.1 hc.2 (iblk2 V c 0 t) (iblk2 V c 1 t) (iblk2 V c 2 t) (iblk2 V c 3 t) (iblk2 V c 4 t) _ _).2.2.2 Set.univ _)
      iframe H0 H1 H2 H3 H4 HS0 HS1
      isplitl [H5]; · iexists _; iexact H5
      iintro ⟨H0, H1, H2, H3, H4, H5, HS0, HS1⟩
      ihave H5 := (owns_of_cover c VO2_5 (cover2_C_5 c _ _ _ _ _ _ _ _ _ _ _ _ _ _ _ _ _ _ _ _ _ _ _ _ _ _)) $$ H5
      ihave HS0 := (owns_of_cover c VS2_0 (scover2_C_0 c _ _ _ _ _ _ _ _ _ _ _ _ _ _ _ _ _ _ _ _ _ _ _ _ _ _)) $$ HS0
      ihave HS1 := (owns_of_cover c VS2_1 (scover2_C_1 c _ _ _ _ _ _ _ _ _ _ _ _ _ _ _ _ _ _ _ _ _ _ _ _ _ _)) $$ HS1
      iframe HS0 HS1 Hrest Hg Ho H0 H1 H2 H3 H4 H5
    · have hc := case2_B t h0 h1
      rw [Dat.leavesExact_idle (dat2 V c) 5 t (idleAt2_5 t hc.2) (noFlush2_5 t hc.2), outsAt2_B V c t h0 h1]
      unfold sout2_B_0 sout2_B_1 accs2; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ hc.1 hc.2 (iblk2 V c 0 t) (iblk2 V c 1 t) (iblk2 V c 2 t) (iblk2 V c 3 t) (iblk2 V c 4 t) _ _).2.2.2 ((dat2 V c).before 5 t d5) Set.univ _)
      iframe H0 H1 H2 H3 H4 H5 HS0 HS1
      iintro ⟨H0, H1, H2, H3, H4, H5, HS0, HS1⟩
      ihave HS0 := (owns_of_cover c VS2_0 (scover2_B_0 c _ _ _ _ _ _ _ _ _ _ _ _ _ _ _ _ _ _ _ _ _ _ _ _ _ _)) $$ HS0
      ihave HS1 := (owns_of_cover c VS2_1 (scover2_B_1 c _ _ _ _ _ _ _ _ _ _ _ _ _ _ _ _ _ _ _ _ _ _ _ _ _ _)) $$ HS1
      iframe HS0 HS1 Hrest Hg Ho H0 H1 H2 H3 H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

/-- After the last point the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 17 := N_2; omega), PhiA2_eq]
  exact sep_mono (sep_mono (sep_mono (exists_intro _) (exists_intro _)) .rfl) .rfl

end Region

end Cert.Kernel.Reg

end
-- ==== Proof.BFold.lean ====
import proofs.«425611_j42314017800422_2_alg».proof.Proof.BReg0
import proofs.«425611_j42314017800422_2_alg».proof.Proof.BReg1
import proofs.«425611_j42314017800422_2_alg».proof.Proof.BReg2
import proofs.«425611_j42314017800422_2_alg».proof.Proof.Gen.Kernel.Regions

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A call leaves a buffer as entered unless an output window's array lies there. -/
theorem keep_of {Λ₀ : Labels} {cfg : Cfg sig Λ₀} {c : Dev nD} (dat : Dat τ (Elt F) Unit ℕ (UR sig nD τ) ℕ cfg c) (hinj : Function.Injective (Pipeline.arrRef cfg.spec))
    (V : Valuation τ sig (Elt F)) (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (dat.arrAt · cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((dat.arrAt_in w (h w rfl) _).trans (hA w))
  · exact Pipeline.withArrays_of_ne _ c V _ r fun w e => hr ⟨w, e⟩

variable (m : (ℓ : Loc nD τ sig) → Buf (Elt F) ℓ) (ρ : Dev nD → PrngReg)

noncomputable abbrev W0 : Dev nD → Valuation τ sig (Elt F) := fun c b => (s₀ m ρ).mem ((c : Dev nD), b)
noncomputable abbrev W1 : Dev nD → Valuation τ sig (Elt F) := fun c => StableHlo.after hostOps0 (W0 m ρ c)
noncomputable abbrev VW1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (VW1 m ρ) c).arrAt w cfg0.N
theorem W2_arr (c : Dev nD) (w : Fin cfg0.W) :
    W2 m ρ c (Proc.devRef .tc (Pipeline.arrRef spec0 w)) = (dat0 (VW1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

noncomputable abbrev W3 : Dev nD → Valuation τ sig (Elt F) := fun c => StableHlo.after hostOps1 (W2 m ρ c)
noncomputable abbrev VW3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (VW3 m ρ) c).arrAt w cfg1.N
theorem W4_arr (c : Dev nD) (w : Fin cfg1.W) :
    W4 m ρ c (Proc.devRef .tc (Pipeline.arrRef spec1 w)) = (dat1 (VW3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

noncomputable abbrev W5 : Dev nD → Valuation τ sig (Elt F) := fun c => StableHlo.after hostOps2 (W4 m ρ c)
noncomputable abbrev W6 (c : Dev nD) := StableHlo.after hostOps2_1 (W5 m ρ c)
noncomputable abbrev W7 (c : Dev nD) := StableHlo.after hostOps2_2 (W6 m ρ c)
noncomputable abbrev W8 (c : Dev nD) := StableHlo.after hostOps2_3 (W7 m ρ c)
noncomputable abbrev W9 (c : Dev nD) := StableHlo.after hostOps2_4 (W8 m ρ c)
noncomputable abbrev W10 (c : Dev nD) := StableHlo.after hostOps2_5 (W9 m ρ c)
noncomputable abbrev W11 : Dev nD → Valuation τ sig (Elt F) := fun c => StableHlo.after hostOps2_6 (W10 m ρ c)
noncomputable abbrev VW11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (VW11 m ρ) c).arrAt w cfg2.N
theorem W12_arr (c : Dev nD) (w : Fin cfg2.W) :
    W12 m ρ c (Proc.devRef .tc (Pipeline.arrRef spec2 w)) = (dat2 (VW11 m ρ) c).arrAt w cfg2.N :=
  Pipeline.withArrays_arr spec2 launch2.win.arr_inj c _ _ w

/-- A buffer that no host stretch writes and that is no output array of a call holds at the end what it held at launch. -/
theorem W12_keep (c : Dev nD) (r : Ref sig .tc) (h0 : r ∉ hostOps0_W) (h1 : r ∉ hostOps1_W) (h2 : r ∉ hostOps2_W)
    (h21 : r ∉ hostOps2_1_W) (h22 : r ∉ hostOps2_2_W) (h23 : r ∉ hostOps2_3_W) (h24 : r ∉ hostOps2_4_W) (h25 : r ∉ hostOps2_5_W)
    (h26 : r ∉ hostOps2_6_W) (a0 : ∀ w, Pipeline.arrRef spec0 w = r → (cfg0.win w).isOut = false)
    (a1 : ∀ w, Pipeline.arrRef spec1 w = r → (cfg1.win w).isOut = false)
    (a2 : ∀ w, Pipeline.arrRef spec2 w = r → (cfg2.win w).isOut = false) :
    W12 m ρ c (Proc.devRef .tc r) = m ((c : Thread nD τ).loc r) :=
  (keep_of (dat2 (VW11 m ρ) c) launch2.win.arr_inj _ (A_eq2 (VW11 m ρ) c) r a2).trans <|
    (StableHlo.after_of_writes_sub hostOps2_6 _ hostOps2_6_writes h26).trans <|
    (StableHlo.after_of_writes_sub hostOps2_5 _ hostOps2_5_writes h25).trans <|
    (StableHlo.after_of_writes_sub hostOps2_4 _ hostOps2_4_writes h24).trans <|
    (StableHlo.after_of_writes_sub hostOps2_3 _ hostOps2_3_writes h23).trans <|
    (StableHlo.after_of_writes_sub hostOps2_2 _ hostOps2_2_writes h22).trans <|
    (StableHlo.after_of_writes_sub hostOps2_1 _ hostOps2_1_writes h21).trans <|
    (StableHlo.after_of_writes_sub hostOps2 _ hostOps2_writes h2).trans <|
    (keep_of (dat1 (VW3 m ρ) c) launch1.win.arr_inj _ (A_eq1 (VW3 m ρ) c) r a1).trans <|
    (StableHlo.after_of_writes_sub hostOps1 _ hostOps1_writes h1).trans <|
    (keep_of (dat0 (VW1 m ρ) c) launch0.win.arr_inj _ (A_eq0 (VW1 m ρ) c) r a0).trans <|
    StableHlo.after_of_writes_sub hostOps0 _ hostOps0_writes h0

/-- No host stretch writes an argument, and none is an output array of a call. -/
theorem W12_args (c : Dev nD) : ∀ r ∈ ([main_arg0, main_arg1, main_arg2, main_arg3, main_arg4, main_arg5, main_arg6, main_arg7,
    main_arg8, main_arg9, main_arg10, main_arg11] : List (Ref sig .tc)), W12 m ρ c (Proc.devRef .tc r) = m ((c : Thread nD τ).loc r) := by
  intro r hr
  apply W12_keep <;> (revert r; decide)

end Cert.Kernel.Reg

end
-- ==== Proof.BRun.lean ====
import proofs.«425611_j42314017800422_2_alg».proof.Proof.BFold

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admK : (p : Fin 3) → (pcfgs (F := F) p).Adm := fun p => (cfgs p).toPCfg_adm
noncomputable def pdats : (p : Fin 3) → (c : Dev nD) → Dat τ (Elt F) Unit ℕ (UR sig nD τ) ℕ (Pipeline.pin (pcfgs (F := F)) admK p) c
  | ⟨0, _⟩ => fun c => dat0 (VW1 m ρ) c
  | ⟨1, _⟩ => fun c => dat1 (VW3 m ρ) c
  | ⟨2, _⟩ => fun c => dat2 (VW11 m ρ) c
abbrev 𝒱K : Variants := Variants.none
abbrev LK : GSem nD τ sig → Finset Unit := fun _ => ∅
abbrev lvK : GSem nD τ sig → Unit → ℕ := fun _ _ => 0
abbrev RK (c : Dev nD) : sProp 𝕄 := iprop((∃ r, prngReg c r) ∗ ∃ W, owes (c : Thread nD τ) (0 : CellTallies nD τ sig Unit) W)
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
noncomputable def regOf (p : Fin 3) (hl : Pipeline.LaunchFacts (nD := nD) (τ := τ) cfgs p) (V : Dev nD → Valuation τ sig (Elt F))
    (hb : ∀ c, BodyObligation (pdats m ρ p c) (defs₀ (F := F)) Variants.none () Set.univ)
    (hq : ∀ c w, (pdats m ρ p c).q w = fullShare) (hz : ∀ c t, (pdats m ρ p c).owed t = 0)
    (hr : ∀ c t x, x ∈ (pdats m ρ p c).recorded t) (hA : ∀ c w, (pdats m ρ p c).A w = V c (Pipeline.arrRef (cfgs p).spec w))
    (hK : IsEmpty (Fin (pcfgs (F := F) p).pre.K))
    (hi : ∀ c, (Pipeline.ΦA (cfgs p).spec c : sProp 𝕄) ⊢ (pdats m ρ p c).Φ 0)
    (ho : ∀ c, (pdats m ρ p c).Φ (Fin.last _) ⊢ (Pipeline.ΦA (cfgs p).spec c : sProp 𝕄)) :
    Pipeline.RegionSeg (pcfgs (F := F)) admK (pdats m ρ) () defs₀ 𝒱K LK lvK p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ LK lvK p hz
  pre c := iprop(StableHlo.held (c : Thread nD τ) (Pipeline.ucRefs τ sig) (V c) ∗ RK c)
  post c := iprop(StableHlo.held (c : Thread nD τ) (Pipeline.ucRefs τ sig)
    (Pipeline.withArrays (cfgs p).spec c (V c) ((pdats m ρ p c).arrAt · (cfgs p).N)) ∗ RK c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs (p := p) (pcfgs (F := F)) admK (pdats m ρ) hl.win hl.arr_whole c
      ((pdats m ρ p c).share_full (hq c)) (fun b => V c b) (hA c)
    rw [Pipeline.unscopedBufs_held] at hsplit
    rw [Pipeline.ownSems0_none]
    unfold Pipeline.Dat.owesAt Pipeline.owesWithin
    rw [hz]
    iintro ⟨⟨Hub, Hp, HO⟩, -, -⟩
    ihave H := hsplit $$ Hub
    icases H with ⟨Ha, Hrest⟩
    icases HO with ⟨%W, HO⟩
    imodintro
    iframe Ha Hp Hrest
    isplitr; · unfold Pipeline.prefHeld; rw [Finset.univ_eq_empty, BI.bigSep_empty]; iempintro
    iexists W; isplitr; · ipureintro; exact fun _ _ => Or.inl (hr c _ _)
    iexact HO
  hin c := by
    refine .trans ?_ (hi c); unfold Pipeline.ΦA
    iintro ⟨Hp, -, Hr⟩
    iframe
  hout c := by
    rw [Pipeline.ownSems0_none]; refine (ho c).trans ?_; unfold Pipeline.ΦA
    iintro ⟨Hr, Hp⟩
    iframe; iempintro
  hexit c := by
    have hjoin := Pipeline.unscopedBufs_of_arrays (p := p) (pcfgs (F := F)) admK (Ix := Unit) (Name := ℕ) (U := UR sig nD τ) (Lvl := ℕ)
      hl.win hl.arr_whole c (pdats m ρ) ((pdats m ρ p c).share_full (hq c)) (fun b => V c b)
      (fun b => Pipeline.withArrays (cfgs p).spec c (V c) ((pdats m ρ p c).arrAt · (cfgs p).N) b) ((pdats m ρ p c).arrAt · (cfgs p).N)
      (fun w => (Pipeline.withArrays_arr _ hl.win.arr_inj c (V c) ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [hz]
    iintro ⟨Ha, HO, HY, Hrest⟩
    imodintro
    isplitl [Ha Hrest]
    · iapply hjoin; iframe
    isplitl [HY]; · iexact HY
    icases HO with ⟨%W, -, HO⟩; iexists W; iexact HO

noncomputable def reg0 := regOf m ρ 0 launch0 (W1 m ρ) (body_obligation0 _) (fun _ _ => rfl) (fun _ _ => rfl) (fun _ _ _ => trivial) (fun _ _ => rfl) Fin.isEmpty (fun _ => .rfl) fun _ => .rfl
noncomputable def reg1 := regOf m ρ 1 launch1 (W3 m ρ) (body_obligation1 _) (fun _ _ => rfl) (fun _ _ => rfl) (fun _ _ _ => trivial) (fun _ _ => rfl) Fin.isEmpty (fun _ => .rfl) fun _ => .rfl
noncomputable def reg2 := regOf m ρ 2 launch2 (W11 m ρ) (body_obligation2 _) (fun _ _ => rfl) (fun _ _ => rfl) (fun _ _ _ => trivial) (fun _ _ => rfl) Fin.isEmpty (hin2 _) (hout2 _)

noncomputable abbrev segsK : List (Pipeline.Seg (pcfgs (F := F)) admK (pdats m ρ) () defs₀ 𝒱K LK lvK) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .region (reg2 m ρ) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_dev (pcfgs (F := F)) admK (pdats m ρ) () cellOf_inj emb₁ defs₀ 𝒱K LK lvK m ρ main (fun _ => segsK m ρ)
    (fun c Q => by
      rewrite [main_chain c, Pipeline.Seg.run_eq_chain]
      exact .rfl)
    (fun c => by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RK c)) (Tₙ := fun c => iprop(StableHlo.held (c : Thread nD τ) (Pipeline.ucRefs τ sig) (W12 m ρ c) ∗ ∃ r, prngReg c r))
    (hch := fun c => ⟨.rfl, .rfl, .rfl, .rfl, .rfl, .rfl, .rfl, .rfl, .rfl, .rfl, .rfl, .rfl, sep_assoc'⟩)
    (hinit := by
      refine Pipeline.initEach LK lvK fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- Buffer `r` holds in `s` what it held at launch. -/
abbrev keeps (s : MemSt nD τ sig (Elt F)) (c : Dev nD) (r : Ref sig .tc) : Prop :=
  s.mem ((c.tc : Thread nD τ).loc r) = m ((c.tc : Thread nD τ).loc r)
abbrev Kept (s : MemSt nD τ sig (Elt F)) (c : Dev nD) : Prop :=
  keeps m s c main_arg0 ∧ keeps m s c main_arg1 ∧ keeps m s c main_arg2 ∧ keeps m s c main_arg3 ∧ keeps m s c main_arg4
  ∧ keeps m s c main_arg5 ∧ keeps m s c main_arg6 ∧ keeps m s c main_arg7 ∧ keeps m s c main_arg8 ∧ keeps m s c main_arg9
  ∧ keeps m s c main_arg10 ∧ keeps m s c main_arg11

/-- The result holds call 2's last output array; an argument is written by no host stretch and is no call's output array. -/
theorem run_result : θ_run defs (onTc (τ := τ) (main (F := F))) ⟨m, fun _ => 0, ρ⟩ (fun r => ∀ c : Dev nD,
      r.2.mem ((c.tc : Thread nD τ).loc main_v50) = (dat2 (VW11 m ρ) c).arrAt 5 cfg2.N ∧ Kept m r.2 c) :=
  (θ_run defs _ _).mono (fun _ h c =>
    ⟨(h c _ (mem_uc main_v50 (by decide))).trans (W12_arr m ρ c 5), by
      refine ⟨?_, ?_, ?_, ?_, ?_, ?_, ?_, ?_, ?_, ?_, ?_, ?_⟩ <;>
        exact (h c _ (mem_uc _ (by decide))).trans (W12_args m ρ c _ (by decide))⟩)
    (run_all m ρ)

theorem frame : θ_run defs (onTc (τ := τ) (main (F := F))) ⟨m, fun _ => 0, ρ⟩ (fun r => ∀ c : Dev nD, Kept m r.2 c) :=
  (θ_run defs _ _).mono (fun _ h c => (h c).2) (run_result m ρ)

end Cert.Kernel.Reg

end
-- ==== Proof.KReg0.lean ====
import proofs.«425611_j42314017800422_2_alg».proof.Proof.Gen.KernelIdeal.Launch
import proofs.«425611_j42314017800422_2_alg».proof.Proof.Gen.KernelIdeal.Skeleton
import proofs.«425611_j42314017800422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit ![0, 0] S5000x128.size inb_S5000x128_S5000x128_0_0
abbrev rW0 : Rect S128x128 := Rect.unit ![0, 0] S128x128.size inb_S128x128_S128x128_0_0
abbrev rB0 : Rect S128 := Rect.unit ![0] S128.size inb_S128_S128_0
abbrev rP0 : Rect S128x64 := Rect.unit ![0, 0] S128x64.size inb_S128x64_S128x64_0_0
abbrev rZ0 : Rect S5000x64 := Rect.unit ![0, 0] S5000x64.size inb_S5000x64_S5000x64_0_0

def out0_6 (x0 x1 : Vec F S5000x128 .f32) (x2 x3 : Vec F S128x128 .f32) (x4 : Vec F S128 .f32) : Vec F S5000x128 .bf16 :=
  View.canon [⟨rA0, k0_pay1 (View.ld x0 rA0) (View.ld x1 rA0) (View.ld x2 rW0) (View.ld x3 rW0) (View.ld x4 rB0)⟩]
def out0_7 (x0 x1 : Vec F S5000x128 .f32) (x2 x3 : Vec F S128x128 .f32) (x4 : Vec F S128 .f32) (x5 : Vec F S128x64 .f32) : Vec F S5000x64 .bf16 :=
  View.canon [⟨rZ0, k0_pay2 (View.ld x0 rA0) (View.ld x1 rA0) (View.ld x2 rW0) (View.ld x3 rW0) (View.ld x4 rB0) (View.ld x5 rP0)⟩]

-- One store through the whole rectangle covers an output, so what it leaves there is that store's payload, whatever was there before.
theorem sound_kernel0 (c : Dev nD) {E : Set ℕ} {i : grid0.Coords}
    {arg1 arg2 : Memref sig .tc .vmem S5000x128 .f32} {arg3 arg4 : Memref sig .tc .vmem S128x128 .f32} {arg5 : Memref sig .tc .vmem S128 .f32}
    {arg6 : Memref sig .tc .vmem S128x64 .f32} {arg7 : Memref sig .tc .vmem S5000x128 .bf16} {arg8 : Memref sig .tc .vmem S5000x64 .bf16}
    {harg1 : arg1.IsWhole} {harg2 : arg2.IsWhole} {harg3 : arg3.IsWhole} {harg4 : arg4.IsWhole} {harg5 : arg5.IsWhole} {harg6 : arg6.IsWhole}
    {harg7 : arg7.IsWhole} {harg8 : arg8.IsWhole} {x0 x1 : Vec F S5000x128 .f32} {x2 x3 : Vec F S128x128 .f32} {x4 : Vec F S128 .f32}
    {x5 : Vec F S128x64 .f32} {d6 : Vec F S5000x128 .bf16} {d7 : Vec F S5000x64 .bf16} (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare d6 ∗ owns c arg8 fullShare d7
        ∗ (iprop(owns c arg1 fullShare x0 ∗ owns c arg2 fullShare x1 ∗ owns c arg3 fullShare x2 ∗ owns c arg4 fullShare x3
            ∗ owns c arg5 fullShare x4 ∗ owns c arg6 fullShare x5
            ∗ owns c arg7 fullShare (out0_6 x0 x1 x2 x3 x4) ∗ owns c arg8 fullShare (out0_7 x0 x1 x2 x3 x4 x5)) -∗ K ⟨⟩))
      ⊢ wp frame (wpE defs₀ Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (View.cover_of_tiled _ S5000x128.size (by rfl))
  iexists _; isplitr
  swap; · iexact H7
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

-- For an input window, what the body finds equals what it leaves: both are the array's block at the point's index.
theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ => fun t d =>
    ((dat0 V c).before_in_eq_fetched _ rfl (fun _ => rfl) (fun _ _ _ => rfl) (fun _ => rfl) t d).trans rfl
  | ⟨6, _⟩, h | ⟨7, _⟩, h => nomatch h

theorem body_obligation0 (c : Dev nD) : BodyObligation (dat0 (F := F) V c) (defs₀ (F := F)) Variants.none () Set.univ := fun t => by
  rw [bigSep_W0, bigSep_W0]
  simp +decide only [before0 V c]
  dsimp only [dat0, Dat.owesAt, Dat.bound]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel0 c
  iframe
  iintro H
  iexact H

end Region

end Cert.KernelIdeal.Reg

end
-- ==== Proof.KReg1.lean ====
import proofs.«425611_j42314017800422_2_alg».proof.Proof.Gen.KernelIdeal.Launch
import proofs.«425611_j42314017800422_2_alg».proof.Proof.Gen.KernelIdeal.Skeleton
import proofs.«425611_j42314017800422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rZ1 : Rect S5000x64 := Rect.unit ![0, 0] S5000x64.size inb_S5000x64_S5000x64_0_0
abbrev rA1 : Rect S5000x128 := Rect.unit ![0, 0] S5000x128.size inb_S5000x128_S5000x128_0_0
abbrev rP1 : Rect S128x64 := Rect.unit ![0, 0] S128x64.size inb_S128x64_S128x64_0_0
abbrev rB1 : Rect S64 := Rect.unit ![0] S64.size inb_S64_S64_0
abbrev rW1 : Rect S64x64 := Rect.unit ![0, 0] S64x64.size inb_S64x64_S64x64_0_0

def out1_5 (x0 : Vec F S5000x64 .f32) (x1 : Vec F S5000x128 .bf16) (x2 : Vec F S128x64 .f32) (x3 : Vec F S64 .f32) : Vec F S5000x64 .bf16 :=
  View.canon [⟨rZ1, k1_pay1 (View.ld x0 rZ1) (View.ld x1 rA1) (View.ld x2 rP1) (View.ld x3 rB1)⟩]
def out1_6 (x0 : Vec F S5000x64 .f32) (x1 : Vec F S5000x128 .bf16) (x2 : Vec F S128x64 .f32) (x3 : Vec F S64 .f32) (x4 : Vec F S64x64 .f32) : Vec F S5000x64 .bf16 :=
  View.canon [⟨rZ1, k1_pay2 (View.ld x0 rZ1) (View.ld x1 rA1) (View.ld x2 rP1) (View.ld x3 rB1) (View.ld x4 rW1)⟩]

-- One store through the whole rectangle covers an output, so what it leaves there is that store's payload, whatever was there before.
theorem sound_kernel1 (c : Dev nD) {E : Set ℕ} {i : grid1.Coords}
    {arg1 : Memref sig .tc .vmem S5000x64 .f32} {arg2 : Memref sig .tc .vmem S5000x128 .bf16} {arg3 : Memref sig .tc .vmem S128x64 .f32}
    {arg4 : Memref sig .tc .vmem S64 .f32} {arg5 : Memref sig .tc .vmem S64x64 .f32} {arg6 arg7 : Memref sig .tc .vmem S5000x64 .bf16}
    {harg1 : arg1.IsWhole} {harg2 : arg2.IsWhole} {harg3 : arg3.IsWhole} {harg4 : arg4.IsWhole} {harg5 : arg5.IsWhole} {harg6 : arg6.IsWhole}
    {harg7 : arg7.IsWhole} {x0 : Vec F S5000x64 .f32} {x1 : Vec F S5000x128 .bf16} {x2 : Vec F S128x64 .f32} {x3 : Vec F S64 .f32}
    {x4 : Vec F S64x64 .f32} {d5 d6 : Vec F S5000x64 .bf16} (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare d5 ∗ owns c arg7 fullShare d6
        ∗ (iprop(owns c arg1 fullShare x0 ∗ owns c arg2 fullShare x1 ∗ owns c arg3 fullShare x2 ∗ owns c arg4 fullShare x3
            ∗ owns c arg5 fullShare x4
            ∗ owns c arg6 fullShare (out1_5 x0 x1 x2 x3) ∗ owns c arg7 fullShare (out1_6 x0 x1 x2 x3 x4)) -∗ K ⟨⟩))
      ⊢ wp frame (wpE defs₀ Variants.none c none) E (cc1__layer2_kernel i arg1 harg1 arg2 harg2 arg3 harg3 arg4 harg4 arg5 harg5 arg6 harg6 arg7 harg7) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (View.cover_of_tiled _ S5000x64.size (by rfl))
  iexists _; isplitr
  swap; · iexact H6
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

-- For an input window, what the body finds equals what it leaves: both are the array's block at the point's index.
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ => fun t d =>
    ((dat1 V c).before_in_eq_fetched _ rfl (fun _ => rfl) (fun _ _ _ => rfl) (fun _ => rfl) t d).trans rfl
  | ⟨5, _⟩, h | ⟨6, _⟩, h => nomatch h

theorem body_obligation1 (c : Dev nD) : BodyObligation (dat1 (F := F) V c) (defs₀ (F := F)) Variants.none () Set.univ := fun t => by
  rw [bigSep_W1, bigSep_W1]
  simp +decide only [before1 V c]
  dsimp only [dat1, Dat.owesAt, Dat.bound]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel1 c
  iframe
  iintro H
  iexact H

end Region

end Cert.KernelIdeal.Reg

end
-- ==== Proof.KReg2Run.lean ====
import proofs.«425611_j42314017800422_2_alg».proof.Proof.Gen.KernelIdeal.Launch
import proofs.«425611_j42314017800422_2_alg».proof.Proof.Gen.KernelIdeal.Skeleton
import proofs.«425611_j42314017800422_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 17 = 0 :=
  (by decide +kernel : ∀ t : Fin grid2.N, cond2_0 (grid2.coords t) ↔ t.val % 17 = 0)
abbrev cond2_1 (i : grid2.Coords) : Prop := k2_cond2 i = 1#1
theorem hcond2_1 : ∀ t : Fin cfg2.N, cond2_1 (grid2.coords t) ↔ t.val % 17 = 16 :=
  (by decide +kernel : ∀ t : Fin grid2.N, cond2_1 (grid2.coords t) ↔ t.val % 17 = 16)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_5 : View sig .tc .vmem S128x64 .f32 := (Memref.whole cc2_stg5_0 : Memref sig .tc .vmem S128x64 .f32).view
abbrev ms2_0 (t : Fin cfg2.N) : Memref sig .tc .vmem S5888x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5888x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x5888 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x64 .f32 := win2_5.stage (cfg2.slots t 5)
abbrev hs2_5 (t : Fin cfg2.N) : (ms2_5 t).IsWhole := hstage2_5 ((cfg2.slots t 5).cast nbuf2_5)
abbrev scM2_0 : Memref sig .tc .vmem S128x64 .f32 := Memref.whole cc2_scratch0
abbrev scM2_1 : Memref sig .tc .vmem S128x1 .f32 := Memref.whole cc2_scratch1
abbrev VS2_0 : View sig .tc .vmem S128x64 .f32 := scM2_0.view
abbrev VS2_1 : View sig .tc .vmem S128x1 .f32 := scM2_1.view

theorem owns_unread (c : Dev nD) {sh : Shape} {e : EltTy} {m : Memref sig .tc .vmem sh e} (h : m.IsWhole) (X : Vec F sh e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X) ⊢ (owns (c : Thread nD τ) m fullShare X : sProp 𝕄) := by
    unfold owns; iintro H; iexists _; isplitr; · ipureintro; exact h.read_unread _
    iexact H
  exact BI.equiv_iff.mp ⟨h₁, h₂⟩

variable (c : Dev nD) (i : grid2.Coords) (arg1 : Memref sig .tc .vmem S5888x64 .f32) (harg1 : arg1.IsWhole) (arg2 : Memref sig .tc .vmem S5888x64 .bf16) (harg2 : arg2.IsWhole) (arg3 : Memref sig .tc .vmem S64x64 .f32) (harg3 : arg3.IsWhole) (arg4 : Memref sig .tc .vmem S64 .f32) (harg4 : arg4.IsWhole) (arg5 : Memref sig .tc .vmem S1x5888 .i32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x1 .f32) (harg8 : arg8.IsWhole)

set_option maxHeartbeats 4000000 in
/-- The first point: the accumulators start at anything and end at the listed stores; the result's buffer comes back as found. -/
noncomputable def kernelRun2_A (hc0 : cond2_0 i) (hc1 : ¬cond2_1 i)
    (x0 : Vec F S5888x64 .f32) (x1 : Vec F S5888x64 .bf16) (x2 : Vec F S64x64 .f32) (x3 : Vec F S64 .f32) (x4 : Vec F S1x5888 .i32) :
    Σ' (L5 : List (View.Piece (Elt F) S128x64 .f32)) (LS0 : List (View.Piece (Elt F) S128x64 .f32)), { LS1 : List (View.Piece (Elt F) S128x1 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, H5, ⟨%d0, HS0⟩, ⟨%d1, HS1⟩, Hk⟩
    sl_exec (disch := first | exact hc0 | exact hc1)
    sl_step
    iapply Hk
    iframe H0 H1 H2 H3 H4 H5
    isplitl [HS0]; · iexists _; iexact HS0
    iexists _; iexact HS1

set_option maxHeartbeats 4000000 in
/-- A point in between: as the first, but from what the point before left in the accumulators. -/
noncomputable def kernelRun2_B (hc0 : ¬cond2_0 i) (hc1 : ¬cond2_1 i)
    (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32) :
    Σ' (L5 : List (View.Piece (Elt F) S128x64 .f32)) (LS0 : List (View.Piece (Elt F) S128x64 .f32)), { LS1 : List (View.Piece (Elt F) S128x1 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨[], ?_, ?_, fun xi5 E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, H5, HS0, HS1, Hk⟩
    sl_exec (disch := first | exact hc0 | exact hc1)
    sl_step
    iapply Hk
    iframe H0 H1 H2 H3 H4 H5
    isplitl [HS0]; · iexists _; iexact HS0
    iexists _; iexact HS1

set_option maxHeartbeats 4000000 in
/-- The last point: as in between, and the result's buffer, found at anything, ends at the listed stores. -/
noncomputable def kernelRun2_C (hc0 : ¬cond2_0 i) (hc1 : cond2_1 i)
    (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32) :
    Σ' (L5 : List (View.Piece (Elt F) S128x64 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__layer3_pool_kernel i arg1 harg1 arg2 harg2 arg3 harg3 arg4 harg4 arg5 harg5 arg6 harg6 arg7 harg7 arg8 harg8) K } := by
  refine ⟨?_, ?_, ?_, fun E K => ?run⟩
  case run =>
    simp only [cc2__layer3_pool_kernel_eq_skeleton, owns_unread c harg1, owns_unread c harg2, owns_unread c harg3, owns_unread c harg4, owns_unread c harg5, owns_unread c harg6, owns_unread c harg7, owns_unread c harg8]
    unfold cc2__layer3_pool_kernel_skel
    iintro ⟨H0, H1, H2, H3, H4, ⟨%d5, H5⟩, HS0, HS1, Hk⟩
    sl_exec (disch := first | exact hc0 | exact hc1)
    sl_step
    iapply Hk
    iframe H0 H1 H2 H3 H4
    isplitl [H5]; · iexists _; iexact H5
    isplitl [HS0]; · iexists _; iexact HS0
    iexists _; iexact HS1

end Cert.KernelIdeal.Reg

end
-- ==== Proof.KReg2.lean ====
import proofs.«425611_j42314017800422_2_alg».proof.Proof.KReg2Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev accs2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) :
    (Pipeline.ΦA spec2 c : sProp 𝕄) = accs2 c iprop((∃ d, owns (c : Thread nD τ) scM2_0 fullShare d) ∗ (∃ d, owns (c : Thread nD τ) scM2_1 fullShare d)) := by
  unfold Pipeline.ΦA; rw [scopedRest2_split]; simp only [scM2_0, scM2_1, owns_whole]; try rfl

/-- Stores that cover a buffer determine its contents, whatever it held before. -/
theorem owns_of_cover (c : Dev nD) {sh : Shape} {e : EltTy} {m : Memref sig .tc .vmem sh e} (v : View sig .tc .vmem sh e)
    {L : List (View.Piece (Elt F) sh e)} (h : ∀ y, ∃ p ∈ L, y ∈ p.1.set) :
    iprop(∃ f, m.view.loc (c : Thread nD τ) ↦[m.view.set]{fullShare} m.view.writes (Elt F) f L)
      ⊢ (owns (c : Thread nD τ) m fullShare (v.read (Elt F) (v.writes (Elt F) v.junk L)) : sProp 𝕄) := by
  unfold owns; iintro ⟨%f, H⟩; iexists m.view.writes (Elt F) f L; isplitr; · ipureintro; exact View.read_writes_of_cover _ _ _ _ _ h
  iexact H

section Args
variable (c : Dev nD) (i : grid2.Coords) (arg1 : Memref sig .tc .vmem S5888x64 .f32) (harg1 : arg1.IsWhole) (arg2 : Memref sig .tc .vmem S5888x64 .bf16) (harg2 : arg2.IsWhole) (arg3 : Memref sig .tc .vmem S64x64 .f32) (harg3 : arg3.IsWhole) (arg4 : Memref sig .tc .vmem S64 .f32) (harg4 : arg4.IsWhole) (arg5 : Memref sig .tc .vmem S1x5888 .i32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x1 .f32) (harg8 : arg8.IsWhole)

section A
variable (hc0 : cond2_0 i) (hc1 : ¬cond2_1 i) (x0 : Vec F S5888x64 .f32) (x1 : Vec F S5888x64 .bf16) (x2 : Vec F S64x64 .f32) (x3 : Vec F S64 .f32) (x4 : Vec F S1x5888 .i32)

def out2_A_5 : Vec F S128x64 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3 x4).1)
theorem scover2_A_0 (y : S128x64.Idx) : ∃ pc ∈ (kernelRun2_A c i arg1 harg1 arg2 harg2 arg3 harg3 arg4 harg4 arg5 harg5 arg6 harg6 arg7 harg7 arg8 harg8 hc0 hc1 x0 x1 x2 x3 x4).2.1, y ∈ pc.1.set :=
  View.cover_of_tiledL _ S128x64.size (by sl_kernel_rfl) y
def sout2_A_0 : Vec F S128x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4).2.1)
theorem scover2_A_1 (y : S128x1.Idx) : ∃ pc ∈ (kernelRun2_A c i arg1 harg1 arg2 harg2 arg3 harg3 arg4 harg4 arg5 harg5 arg6 harg6 arg7 harg7 arg8 harg8 hc0 hc1 x0 x1 x2 x3 x4).2.2.1, y ∈ pc.1.set :=
  View.cover_of_tiledL _ S128x1.size (by sl_kernel_rfl) y
def sout2_A_1 : Vec F S128x1 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3 x4).2.2.1)

end A

section B
variable (hc0 : ¬cond2_0 i) (hc1 : ¬cond2_1 i) (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32)

def out2_B_5 : Vec F S128x64 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 x4 xs0 xs1).1)
theorem scover2_B_0 (y : S128x64.Idx) : ∃ pc ∈ (kernelRun2_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL _ S128x64.size (by sl_kernel_rfl) y
def sout2_B_0 : Vec F S128x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 xs0 xs1).2.1)
theorem scover2_B_1 (y : S128x1.Idx) : ∃ pc ∈ (kernelRun2_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL _ S128x1.size (by sl_kernel_rfl) y
def sout2_B_1 : Vec F S128x1 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 x4 xs0 xs1).2.2.1)

end B

section C
variable (hc0 : ¬cond2_0 i) (hc1 : cond2_1 i) (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32)

def out2_C_5 : Vec F S128x64 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 x4 xs0 xs1).1)
theorem cover2_C_5 (y : S128x64.Idx) : ∃ pc ∈ (kernelRun2_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL _ S128x64.size (by sl_kernel_rfl) y
theorem scover2_C_0 (y : S128x64.Idx) : ∃ pc ∈ (kernelRun2_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL _ S128x64.size (by sl_kernel_rfl) y
def sout2_C_0 : Vec F S128x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 xs0 xs1).2.1)
theorem scover2_C_1 (y : S128x1.Idx) : ∃ pc ∈ (kernelRun2_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL _ S128x1.size (by sl_kernel_rfl) y
def sout2_C_1 : Vec F S128x1 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 x4 xs0 xs1).2.2.1)

end C

end Args

/-- Which of the three cases point `t` is in, from its position. -/
theorem case2_A (t : Fin cfg2.N) (h0 : t.val % 17 = 0) : cond2_0 (grid2.coords t) ∧ ¬cond2_1 (grid2.coords t) :=
  ⟨(hcond2_0 t).mpr h0, fun h => by have := (hcond2_1 t).mp h; omega⟩
theorem case2_B (t : Fin cfg2.N) (h0 : ¬t.val % 17 = 0) (h1 : ¬t.val % 17 = 16) : ¬cond2_0 (grid2.coords t) ∧ ¬cond2_1 (grid2.coords t) :=
  ⟨fun h => h0 ((hcond2_0 t).mp h), fun h => h1 ((hcond2_1 t).mp h)⟩
theorem case2_C (t : Fin cfg2.N) (h0 : ¬t.val % 17 = 0) (h1 : t.val % 17 = 16) : ¬cond2_0 (grid2.coords t) ∧ cond2_1 (grid2.coords t) :=
  ⟨fun h => h0 ((hcond2_0 t).mp h), (hcond2_1 t).mpr h1⟩

section Region
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- `k` applied to the body's arguments at grid point `t`. -/
abbrev atPt2 {α : Sort _} {P Q : grid2.Coords → Prop} (c : Dev nD) (t : Fin cfg2.N)
    (k : ∀ (i : grid2.Coords) (arg1 : Memref sig .tc .vmem S5888x64 .f32) (_ : arg1.IsWhole) (arg2 : Memref sig .tc .vmem S5888x64 .bf16) (_ : arg2.IsWhole) (arg3 : Memref sig .tc .vmem S64x64 .f32) (_ : arg3.IsWhole) (arg4 : Memref sig .tc .vmem S64 .f32) (_ : arg4.IsWhole) (arg5 : Memref sig .tc .vmem S1x5888 .i32) (_ : arg5.IsWhole) (arg6 : Memref sig .tc .vmem S128x64 .f32) (_ : arg6.IsWhole) (arg7 : Memref sig .tc .vmem S128x64 .f32) (_ : arg7.IsWhole) (arg8 : Memref sig .tc .vmem S128x1 .f32) (_ : arg8.IsWhole), P i → Q i → Vec F S5888x64 .f32 → Vec F S5888x64 .bf16 → Vec F S64x64 .f32 → Vec F S64 .f32 → Vec F S1x5888 .i32 → α)
    (h0 : P (grid2.coords t)) (h1 : Q (grid2.coords t)) : α :=
  k (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) h0 h1 (iblk2 V c 0 t) (iblk2 V c 1 t) (iblk2 V c 2 t) (iblk2 V c 3 t) (iblk2 V c 4 t)

/-- What the result's buffer and the two accumulators hold after the body at position `n`: the point's case, run on its input blocks and, after the first point, on what position `n - 1` left in the accumulators. -/
def outsAt2 (c : Dev nD) : (n : ℕ) → n < cfg2.N → Vec F S128x64 .f32 × Vec F S128x64 .f32 × Vec F S128x1 .f32
  | 0, hn => (atPt2 V c ⟨0, hn⟩ (out2_A_5 c) (case2_A ⟨0, hn⟩ rfl).1 (case2_A ⟨0, hn⟩ rfl).2, atPt2 V c ⟨0, hn⟩ (sout2_A_0 c) (case2_A ⟨0, hn⟩ rfl).1 (case2_A ⟨0, hn⟩ rfl).2, atPt2 V c ⟨0, hn⟩ (sout2_A_1 c) (case2_A ⟨0, hn⟩ rfl).1 (case2_A ⟨0, hn⟩ rfl).2)
  | n + 1, hn =>
    let t : Fin cfg2.N := ⟨n + 1, hn⟩
    let p := (outsAt2 c n (Nat.lt_of_succ_lt hn)).2
    if h0 : (n + 1) % 17 = 0 then (atPt2 V c t (out2_A_5 c) (case2_A t h0).1 (case2_A t h0).2, atPt2 V c t (sout2_A_0 c) (case2_A t h0).1 (case2_A t h0).2, atPt2 V c t (sout2_A_1 c) (case2_A t h0).1 (case2_A t h0).2)
    else if h1 : (n + 1) % 17 = 16 then (atPt2 V c t (out2_C_5 c) (case2_C t h0 h1).1 (case2_C t h0 h1).2 p.1 p.2, atPt2 V c t (sout2_C_0 c) (case2_C t h0 h1).1 (case2_C t h0 h1).2 p.1 p.2, atPt2 V c t (sout2_C_1 c) (case2_C t h0 h1).1 (case2_C t h0 h1).2 p.1 p.2)
    else (atPt2 V c t (out2_B_5 c) (case2_B t h0 h1).1 (case2_B t h0 h1).2 p.1 p.2, atPt2 V c t (sout2_B_0 c) (case2_B t h0 h1).1 (case2_B t h0 h1).2 p.1 p.2, atPt2 V c t (sout2_B_1 c) (case2_B t h0 h1).1 (case2_B t h0 h1).2 p.1 p.2)

theorem outsAt2_A (c : Dev nD) (t : Fin cfg2.N) (h0 : t.val % 17 = 0) (h1 : ¬t.val % 17 = 16) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => rfl
  | succ n => exact (dif_pos h0).trans rfl

theorem outsAt2_B (c : Dev nD) (t : Fin cfg2.N) (h0 : ¬t.val % 17 = 0) (h1 : ¬t.val % 17 = 16) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 17 = 0) (h1 : t.val % 17 = 16) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- Between points the accumulators hold what the point before left. -/
def PhiS2 (c : Dev nD) : (n : ℕ) → n ≤ cfg2.N → sProp 𝕄
  | 0, _ => Pipeline.ΦA spec2 c
  | n + 1, hn => accs2 c iprop(owns (c : Thread nD τ) scM2_0 fullShare (outsAt2 V c n hn).2.1 ∗ owns (c : Thread nD τ) scM2_1 fullShare (outsAt2 V c n hn).2.2)

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = accs2 c iprop(owns (c : Thread nD τ) scM2_0 fullShare (outsAt2 V c (n - 1) (by omega)).2.1 ∗ owns (c : Thread nD τ) scM2_1 fullShare (outsAt2 V c (n - 1) (by omega)).2.2) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4800000 in
/-- The body at any point, by the case its position puts it in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  have hN : t.val < 17 := lt_of_lt_of_eq t.isLt (show cfg2.N = 17 from N_2)
  rw [show (dat2 V c).owesAt () t.succ = (dat2 V c).owesAt () t.castSucc from rfl,
    show (dat2 V c).Φ t.succ = accs2 c iprop(owns (c : Thread nD τ) scM2_0 fullShare (outsAt2 V c t.val t.isLt).2.1 ∗ owns (c : Thread nD τ) scM2_1 fullShare (outsAt2 V c t.val t.isLt).2.2) from rfl,
    show (dat2 V c).Φ t.castSucc = PhiS2 V c t.val (Nat.le_of_lt t.isLt) from by dsimp only [dat2]; simp only [Fin.coe_castSucc],
    show (dat2 V c).leavesExact 0 t = owns (c : Thread nD τ) (ms2_0 t) fullShare (iblk2 V c 0 t) from by unfold Dat.leavesExact; rw [liveAt2_0 t]; dsimp only [dat2],
    show (dat2 V c).leavesExact 1 t = owns (c : Thread nD τ) (ms2_1 t) fullShare (iblk2 V c 1 t) from by unfold Dat.leavesExact; rw [liveAt2_1 t]; dsimp only [dat2],
    show (dat2 V c).leavesExact 2 t = owns (c : Thread nD τ) (ms2_2 t) fullShare (iblk2 V c 2 t) from by unfold Dat.leavesExact; rw [liveAt2_2 t]; dsimp only [dat2],
    show (dat2 V c).leavesExact 3 t = owns (c : Thread nD τ) (ms2_3 t) fullShare (iblk2 V c 3 t) from by unfold Dat.leavesExact; rw [liveAt2_3 t]; dsimp only [dat2],
    show (dat2 V c).leavesExact 4 t = owns (c : Thread nD τ) (ms2_4 t) fullShare (iblk2 V c 4 t) from by unfold Dat.leavesExact; rw [liveAt2_4 t]; dsimp only [dat2]]
  by_cases h0 : t.val % 17 = 0
  · have hc := case2_A t h0
    rw [Dat.leavesExact_idle (dat2 V c) 5 t (idleAt2_5 t hc.2) (noFlush2_5 t hc.2), outsAt2_A V c t h0 (by omega),
      PhiS2_zero V c _ _ (by omega), PhiA2_eq]
    unfold sout2_A_0 sout2_A_1 accs2; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ hc.1 hc.2 (iblk2 V c 0 t) (iblk2 V c 1 t) (iblk2 V c 2 t) (iblk2 V c 3 t) (iblk2 V c 4 t)).2.2.2 ((dat2 V c).before 5 t d5) Set.univ _)
    iframe H0 H1 H2 H3 H4 H5 HS0 HS1
    iintro ⟨H0, H1, H2, H3, H4, H5, HS0, HS1⟩
    ihave HS0 := (owns_of_cover c VS2_0 (scover2_A_0 c _ _ _ _ _ _ _ _ _ _ _ _ _ _ _ _ _ _ _ _ _ _ _ _)) $$ HS0
    ihave HS1 := (owns_of_cover c VS2_1 (scover2_A_1 c _ _ _ _ _ _ _ _ _ _ _ _ _ _ _ _ _ _ _ _ _ _ _ _)) $$ HS1
    iframe HS0 HS1 Hrest Hg Ho H0 H1 H2 H3 H4
    iexists _; iexact H5
  · have hz : t.val ≠ 0 := fun h => h0 (by rw [h])
    rw [PhiS2_pos V c _ _ hz]
    by_cases h1 : t.val % 17 = 16
    · have hc := case2_C t h0 h1
      rw [show (dat2 V c).leavesExact 5 t = owns (c : Thread nD τ) (ms2_5 t) fullShare (outsAt2 V c t.val t.isLt).1 from by unfold Dat.leavesExact; rw [liveAt2_5 t hc.2]; dsimp only [dat2],
        outsAt2_C V c t h0 h1]
      unfold out2_C_5 sout2_C_0 sout2_C_1 accs2; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc.1 hc.2 (iblk2 V c 0 t) (iblk2 V c 1 t) (iblk2 V c 2 t) (iblk2 V c 3 t) (iblk2 V c 4 t) _ _).2.2.2 Set.univ _)
      iframe H0 H1 H2 H3 H4 HS0 HS1
      isplitl [H5]; · iexists _; iexact H5
      iintro ⟨H0, H1, H2, H3, H4, H5, HS0, HS1⟩
      ihave H5 := (owns_of_cover c VO2_5 (cover2_C_5 c _ _ _ _ _ _ _ _ _ _ _ _ _ _ _ _ _ _ _ _ _ _ _ _ _ _)) $$ H5
      ihave HS0 := (owns_of_cover c VS2_0 (scover2_C_0 c _ _ _ _ _ _ _ _ _ _ _ _ _ _ _ _ _ _ _ _ _ _ _ _ _ _)) $$ HS0
      ihave HS1 := (owns_of_cover c VS2_1 (scover2_C_1 c _ _ _ _ _ _ _ _ _ _ _ _ _ _ _ _ _ _ _ _ _ _ _ _ _ _)) $$ HS1
      iframe HS0 HS1 Hrest Hg Ho H0 H1 H2 H3 H4 H5
    · have hc := case2_B t h0 h1
      rw [Dat.leavesExact_idle (dat2 V c) 5 t (idleAt2_5 t hc.2) (noFlush2_5 t hc.2), outsAt2_B V c t h0 h1]
      unfold sout2_B_0 sout2_B_1 accs2; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ hc.1 hc.2 (iblk2 V c 0 t) (iblk2 V c 1 t) (iblk2 V c 2 t) (iblk2 V c 3 t) (iblk2 V c 4 t) _ _).2.2.2 ((dat2 V c).before 5 t d5) Set.univ _)
      iframe H0 H1 H2 H3 H4 H5 HS0 HS1
      iintro ⟨H0, H1, H2, H3, H4, H5, HS0, HS1⟩
      ihave HS0 := (owns_of_cover c VS2_0 (scover2_B_0 c _ _ _ _ _ _ _ _ _ _ _ _ _ _ _ _ _ _ _ _ _ _ _ _ _ _)) $$ HS0
      ihave HS1 := (owns_of_cover c VS2_1 (scover2_B_1 c _ _ _ _ _ _ _ _ _ _ _ _ _ _ _ _ _ _ _ _ _ _ _ _ _ _)) $$ HS1
      iframe HS0 HS1 Hrest Hg Ho H0 H1 H2 H3 H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

/-- After the last point the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 17 := N_2; omega), PhiA2_eq]
  exact sep_mono (sep_mono (sep_mono (exists_intro _) (exists_intro _)) .rfl) .rfl

end Region

end Cert.KernelIdeal.Reg

end
-- ==== Proof.KFold.lean ====
import proofs.«425611_j42314017800422_2_alg».proof.Proof.KReg0
import proofs.«425611_j42314017800422_2_alg».proof.Proof.KReg1
import proofs.«425611_j42314017800422_2_alg».proof.Proof.KReg2
import proofs.«425611_j42314017800422_2_alg».proof.Proof.Gen.KernelIdeal.Regions

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A call leaves a buffer as entered unless an output window's array lies there. -/
theorem keep_of {Λ₀ : Labels} {cfg : Cfg sig Λ₀} {c : Dev nD} (dat : Dat τ (Elt F) Unit ℕ (UR sig nD τ) ℕ cfg c) (hinj : Function.Injective (Pipeline.arrRef cfg.spec))
    (V : Valuation τ sig (Elt F)) (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (dat.arrAt · cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((dat.arrAt_in w (h w rfl) _).trans (hA w))
  · exact Pipeline.withArrays_of_ne _ c V _ r fun w e => hr ⟨w, e⟩

variable (m : (ℓ : Loc nD τ sig) → Buf (Elt F) ℓ) (ρ : Dev nD → PrngReg)

noncomputable abbrev W0 : Dev nD → Valuation τ sig (Elt F) := fun c b => (s₀ m ρ).mem ((c : Dev nD), b)
noncomputable abbrev W1 : Dev nD → Valuation τ sig (Elt F) := fun c => StableHlo.after hostOps0 (W0 m ρ c)
noncomputable abbrev VW1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (VW1 m ρ) c).arrAt w cfg0.N
theorem W2_arr (c : Dev nD) (w : Fin cfg0.W) :
    W2 m ρ c (Proc.devRef .tc (Pipeline.arrRef spec0 w)) = (dat0 (VW1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

noncomputable abbrev W3 : Dev nD → Valuation τ sig (Elt F) := fun c => StableHlo.after hostOps1 (W2 m ρ c)
noncomputable abbrev VW3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (VW3 m ρ) c).arrAt w cfg1.N
theorem W4_arr (c : Dev nD) (w : Fin cfg1.W) :
    W4 m ρ c (Proc.devRef .tc (Pipeline.arrRef spec1 w)) = (dat1 (VW3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

noncomputable abbrev W5 : Dev nD → Valuation τ sig (Elt F) := fun c => StableHlo.after hostOps2 (W4 m ρ c)
noncomputable abbrev W6 (c : Dev nD) := StableHlo.after hostOps2_1 (W5 m ρ c)
noncomputable abbrev W7 (c : Dev nD) := StableHlo.after hostOps2_2 (W6 m ρ c)
noncomputable abbrev W8 (c : Dev nD) := StableHlo.after hostOps2_3 (W7 m ρ c)
noncomputable abbrev W9 (c : Dev nD) := StableHlo.after hostOps2_4 (W8 m ρ c)
noncomputable abbrev W10 (c : Dev nD) := StableHlo.after hostOps2_5 (W9 m ρ c)
noncomputable abbrev W11 : Dev nD → Valuation τ sig (Elt F) := fun c => StableHlo.after hostOps2_6 (W10 m ρ c)
noncomputable abbrev VW11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (VW11 m ρ) c).arrAt w cfg2.N
theorem W12_arr (c : Dev nD) (w : Fin cfg2.W) :
    W12 m ρ c (Proc.devRef .tc (Pipeline.arrRef spec2 w)) = (dat2 (VW11 m ρ) c).arrAt w cfg2.N :=
  Pipeline.withArrays_arr spec2 launch2.win.arr_inj c _ _ w

/-- A buffer that no host stretch writes and that is no output array of a call holds at the end what it held at launch. -/
theorem W12_keep (c : Dev nD) (r : Ref sig .tc) (h0 : r ∉ hostOps0_W) (h1 : r ∉ hostOps1_W) (h2 : r ∉ hostOps2_W)
    (h21 : r ∉ hostOps2_1_W) (h22 : r ∉ hostOps2_2_W) (h23 : r ∉ hostOps2_3_W) (h24 : r ∉ hostOps2_4_W) (h25 : r ∉ hostOps2_5_W)
    (h26 : r ∉ hostOps2_6_W) (a0 : ∀ w, Pipeline.arrRef spec0 w = r → (cfg0.win w).isOut = false)
    (a1 : ∀ w, Pipeline.arrRef spec1 w = r → (cfg1.win w).isOut = false)
    (a2 : ∀ w, Pipeline.arrRef spec2 w = r → (cfg2.win w).isOut = false) :
    W12 m ρ c (Proc.devRef .tc r) = m ((c : Thread nD τ).loc r) :=
  (keep_of (dat2 (VW11 m ρ) c) launch2.win.arr_inj _ (A_eq2 (VW11 m ρ) c) r a2).trans <|
    (StableHlo.after_of_writes_sub hostOps2_6 _ hostOps2_6_writes h26).trans <|
    (StableHlo.after_of_writes_sub hostOps2_5 _ hostOps2_5_writes h25).trans <|
    (StableHlo.after_of_writes_sub hostOps2_4 _ hostOps2_4_writes h24).trans <|
    (StableHlo.after_of_writes_sub hostOps2_3 _ hostOps2_3_writes h23).trans <|
    (StableHlo.after_of_writes_sub hostOps2_2 _ hostOps2_2_writes h22).trans <|
    (StableHlo.after_of_writes_sub hostOps2_1 _ hostOps2_1_writes h21).trans <|
    (StableHlo.after_of_writes_sub hostOps2 _ hostOps2_writes h2).trans <|
    (keep_of (dat1 (VW3 m ρ) c) launch1.win.arr_inj _ (A_eq1 (VW3 m ρ) c) r a1).trans <|
    (StableHlo.after_of_writes_sub hostOps1 _ hostOps1_writes h1).trans <|
    (keep_of (dat0 (VW1 m ρ) c) launch0.win.arr_inj _ (A_eq0 (VW1 m ρ) c) r a0).trans <|
    StableHlo.after_of_writes_sub hostOps0 _ hostOps0_writes h0

/-- No host stretch writes an argument, and none is an output array of a call. -/
theorem W12_args (c : Dev nD) : ∀ r ∈ ([main_arg0, main_arg1, main_arg2, main_arg3, main_arg4, main_arg5, main_arg6, main_arg7,
    main_arg8, main_arg9, main_arg10, main_arg11] : List (Ref sig .tc)), W12 m ρ c (Proc.devRef .tc r) = m ((c : Thread nD τ).loc r) := by
  intro r hr
  apply W12_keep <;> (revert r; decide)

end Cert.KernelIdeal.Reg

end
-- ==== Proof.KRun.lean ====
import proofs.«425611_j42314017800422_2_alg».proof.Proof.KFold

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admK : (p : Fin 3) → (pcfgs (F := F) p).Adm := fun p => (cfgs p).toPCfg_adm
noncomputable def pdats : (p : Fin 3) → (c : Dev nD) → Dat τ (Elt F) Unit ℕ (UR sig nD τ) ℕ (Pipeline.pin (pcfgs (F := F)) admK p) c
  | ⟨0, _⟩ => fun c => dat0 (VW1 m ρ) c
  | ⟨1, _⟩ => fun c => dat1 (VW3 m ρ) c
  | ⟨2, _⟩ => fun c => dat2 (VW11 m ρ) c
abbrev 𝒱K : Variants := Variants.none
abbrev LK : GSem nD τ sig → Finset Unit := fun _ => ∅
abbrev lvK : GSem nD τ sig → Unit → ℕ := fun _ _ => 0
abbrev RK (c : Dev nD) : sProp 𝕄 := iprop((∃ r, prngReg c r) ∗ ∃ W, owes (c : Thread nD τ) (0 : CellTallies nD τ sig Unit) W)
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
noncomputable def regOf (p : Fin 3) (hl : Pipeline.LaunchFacts (nD := nD) (τ := τ) cfgs p) (V : Dev nD → Valuation τ sig (Elt F))
    (hb : ∀ c, BodyObligation (pdats m ρ p c) (defs₀ (F := F)) Variants.none () Set.univ)
    (hq : ∀ c w, (pdats m ρ p c).q w = fullShare) (hz : ∀ c t, (pdats m ρ p c).owed t = 0)
    (hr : ∀ c t x, x ∈ (pdats m ρ p c).recorded t) (hA : ∀ c w, (pdats m ρ p c).A w = V c (Pipeline.arrRef (cfgs p).spec w))
    (hK : IsEmpty (Fin (pcfgs (F := F) p).pre.K))
    (hi : ∀ c, (Pipeline.ΦA (cfgs p).spec c : sProp 𝕄) ⊢ (pdats m ρ p c).Φ 0)
    (ho : ∀ c, (pdats m ρ p c).Φ (Fin.last _) ⊢ (Pipeline.ΦA (cfgs p).spec c : sProp 𝕄)) :
    Pipeline.RegionSeg (pcfgs (F := F)) admK (pdats m ρ) () defs₀ 𝒱K LK lvK p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ LK lvK p hz
  pre c := iprop(StableHlo.held (c : Thread nD τ) (Pipeline.ucRefs τ sig) (V c) ∗ RK c)
  post c := iprop(StableHlo.held (c : Thread nD τ) (Pipeline.ucRefs τ sig)
    (Pipeline.withArrays (cfgs p).spec c (V c) ((pdats m ρ p c).arrAt · (cfgs p).N)) ∗ RK c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs (p := p) (pcfgs (F := F)) admK (pdats m ρ) hl.win hl.arr_whole c
      ((pdats m ρ p c).share_full (hq c)) (fun b => V c b) (hA c)
    rw [Pipeline.unscopedBufs_held] at hsplit
    rw [Pipeline.ownSems0_none]
    unfold Pipeline.Dat.owesAt Pipeline.owesWithin
    rw [hz]
    iintro ⟨⟨Hub, Hp, HO⟩, -, -⟩
    ihave H := hsplit $$ Hub
    icases H with ⟨Ha, Hrest⟩
    icases HO with ⟨%W, HO⟩
    imodintro
    iframe Ha Hp Hrest
    isplitr; · unfold Pipeline.prefHeld; rw [Finset.univ_eq_empty, BI.bigSep_empty]; iempintro
    iexists W; isplitr; · ipureintro; exact fun _ _ => Or.inl (hr c _ _)
    iexact HO
  hin c := by
    refine .trans ?_ (hi c); unfold Pipeline.ΦA
    iintro ⟨Hp, -, Hr⟩
    iframe
  hout c := by
    rw [Pipeline.ownSems0_none]; refine (ho c).trans ?_; unfold Pipeline.ΦA
    iintro ⟨Hr, Hp⟩
    iframe; iempintro
  hexit c := by
    have hjoin := Pipeline.unscopedBufs_of_arrays (p := p) (pcfgs (F := F)) admK (Ix := Unit) (Name := ℕ) (U := UR sig nD τ) (Lvl := ℕ)
      hl.win hl.arr_whole c (pdats m ρ) ((pdats m ρ p c).share_full (hq c)) (fun b => V c b)
      (fun b => Pipeline.withArrays (cfgs p).spec c (V c) ((pdats m ρ p c).arrAt · (cfgs p).N) b) ((pdats m ρ p c).arrAt · (cfgs p).N)
      (fun w => (Pipeline.withArrays_arr _ hl.win.arr_inj c (V c) ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [hz]
    iintro ⟨Ha, HO, HY, Hrest⟩
    imodintro
    isplitl [Ha Hrest]
    · iapply hjoin; iframe
    isplitl [HY]; · iexact HY
    icases HO with ⟨%W, -, HO⟩; iexists W; iexact HO

noncomputable def reg0 := regOf m ρ 0 launch0 (W1 m ρ) (body_obligation0 _) (fun _ _ => rfl) (fun _ _ => rfl) (fun _ _ _ => trivial) (fun _ _ => rfl) Fin.isEmpty (fun _ => .rfl) fun _ => .rfl
noncomputable def reg1 := regOf m ρ 1 launch1 (W3 m ρ) (body_obligation1 _) (fun _ _ => rfl) (fun _ _ => rfl) (fun _ _ _ => trivial) (fun _ _ => rfl) Fin.isEmpty (fun _ => .rfl) fun _ => .rfl
noncomputable def reg2 := regOf m ρ 2 launch2 (W11 m ρ) (body_obligation2 _) (fun _ _ => rfl) (fun _ _ => rfl) (fun _ _ _ => trivial) (fun _ _ => rfl) Fin.isEmpty (hin2 _) (hout2 _)

noncomputable abbrev segsK : List (Pipeline.Seg (pcfgs (F := F)) admK (pdats m ρ) () defs₀ 𝒱K LK lvK) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .region (reg2 m ρ) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_dev (pcfgs (F := F)) admK (pdats m ρ) () cellOf_inj emb₁ defs₀ 𝒱K LK lvK m ρ main (fun _ => segsK m ρ)
    (fun c Q => by
      rewrite [main_chain c, Pipeline.Seg.run_eq_chain]
      exact .rfl)
    (fun c => by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RK c)) (Tₙ := fun c => iprop(StableHlo.held (c : Thread nD τ) (Pipeline.ucRefs τ sig) (W12 m ρ c) ∗ ∃ r, prngReg c r))
    (hch := fun c => ⟨.rfl, .rfl, .rfl, .rfl, .rfl, .rfl, .rfl, .rfl, .rfl, .rfl, .rfl, .rfl, sep_assoc'⟩)
    (hinit := by
      refine Pipeline.initEach LK lvK fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- Buffer `r` holds in `s` what it held at launch. -/
abbrev keeps (s : MemSt nD τ sig (Elt F)) (c : Dev nD) (r : Ref sig .tc) : Prop :=
  s.mem ((c.tc : Thread nD τ).loc r) = m ((c.tc : Thread nD τ).loc r)
abbrev Kept (s : MemSt nD τ sig (Elt F)) (c : Dev nD) : Prop :=
  keeps m s c main_arg0 ∧ keeps m s c main_arg1 ∧ keeps m s c main_arg2 ∧ keeps m s c main_arg3 ∧ keeps m s c main_arg4
  ∧ keeps m s c main_arg5 ∧ keeps m s c main_arg6 ∧ keeps m s c main_arg7 ∧ keeps m s c main_arg8 ∧ keeps m s c main_arg9
  ∧ keeps m s c main_arg10 ∧ keeps m s c main_arg11

/-- The result holds call 2's last output array; an argument is written by no host stretch and is no call's output array. -/
theorem run_result : θ_run defs (onTc (τ := τ) (main (F := F))) ⟨m, fun _ => 0, ρ⟩ (fun r => ∀ c : Dev nD,
      r.2.mem ((c.tc : Thread nD τ).loc main_v50) = (dat2 (VW11 m ρ) c).arrAt 5 cfg2.N ∧ Kept m r.2 c) :=
  (θ_run defs _ _).mono (fun _ h c =>
    ⟨(h c _ (mem_uc main_v50 (by decide))).trans (W12_arr m ρ c 5), by
      refine ⟨?_, ?_, ?_, ?_, ?_, ?_, ?_, ?_, ?_, ?_, ?_, ?_⟩ <;>
        exact (h c _ (mem_uc _ (by decide))).trans (W12_args m ρ c _ (by decide))⟩)
    (run_all m ρ)

theorem frame : θ_run defs (onTc (τ := τ) (main (F := F))) ⟨m, fun _ => 0, ρ⟩ (fun r => ∀ c : Dev nD, Kept m r.2 c) :=
  (θ_run defs _ _).mono (fun _ h c => (h c).2) (run_result m ρ)

end Cert.KernelIdeal.Reg

end
-- ==== Proof.LibMatmul.lean ====
import Idealize.ShloMosaic.Lib.ValueIdx
import Idealize.ShloMosaic.PureOps.Ideal.Laws

noncomputable section

namespace Idealize.ShloMosaic.ValueIdx

open Idealize.ShloMosaic

/-- An M×K by K×N product into a zero accumulator is, at `(p, q)`, row `p` of the left factor times column `q` of the right. -/
theorem matmul_plain_apply {M K N : Nat} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    matmul (F := Ideal) d none x w (constant (F := Ideal) ⟨2, ![M, N]⟩ .f32 0x00000000#32) (ix2 p q)
      = ∑ k : Fin K, x (ix2 p k) * w (ix2 k q) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from
        funext fun a => Fin.ext (match a with | ⟨0, _⟩ => rfl | ⟨1, _⟩ => hk),
      show (DotDims.plain M K N).rhsIdx (ix2 p q) ((contrEquiv1 (DotDims.plain M K N) K rfl rfl).symm k) = ix2 k q from
        funext fun a => Fin.ext (match a with | ⟨0, _⟩ => hk | ⟨1, _⟩ => rfl)]

end Idealize.ShloMosaic.ValueIdx

end
-- ==== Proof.KVal0.lean ====
import proofs.«425611_j42314017800422_2_alg».proof.Proof.KReg0
import proofs.«425611_j42314017800422_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem pay1_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix1 q)) 0 := by
  unfold k0_pay1
  rw [truncf_apply, maximumf_apply, addf_apply, addf_apply,
    matmul_plain_apply dot_S5000x128_S128x128_S5000x128_1_0_0_1_n_n rfl,
    matmul_plain_apply dot_S5000x128_S128x128_S5000x128_1_0_0_1_n_n rfl, broadcast_apply,
    broadcastTo_1b_ab_apply, shapeCast_a_1a_apply]
  simp only [truncf_apply, shapeCast_self]
  exact congrArg (max _) Ideal.ofBits_zero_f32

theorem pay2_apply (x0 x1 : Vec Ideal S5000x128 .f32) (x2 x3 : Vec Ideal S128x128 .f32) (x4 : Vec Ideal S128 .f32)
    (x5 : Vec Ideal S128x64 .f32) (p : Fin 5000) (q : Fin 64) :
    k0_pay2 (F := Ideal) x0 x1 x2 x3 x4 x5 (ix2 p q)
      = ∑ k : Fin 128, k0_pay1 (F := Ideal) x0 x1 x2 x3 x4 (ix2 p k) * x5 (ix2 k q) := by
  unfold k0_pay2
  rw [truncf_apply, matmul_plain_apply dot_S5000x128_S128x64_S5000x64_1_0_0_1_n_n rfl]
  simp only [truncf_apply, shapeCast_self]

theorem hz2 : (![0, 0] : Fin 2 → Nat) = fun _ => 0 := funext fun a => by fin_cases a <;> rfl
theorem hz1 : (![0] : Fin 1 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b)) (c : Dev nD) (t : Fin cfg0.N)

abbrev inA0 : S100000x128.Idx → EReal := V c main_v15
abbrev inX0 : S100000x128.Idx → EReal := V c main_arg0
abbrev inWr0 : S128x128.Idx → EReal := V c main_v16
abbrev inWs0 : S128x128.Idx → EReal := V c main_v17
abbrev inB0 : S128.Idx → EReal := V c main_arg5
abbrev inP0 : S128x64.Idx → EReal := V c main_v18
abbrev outH0 : S100000x128.Idx → EReal := (dat0 (F := Ideal) V c).arrAt 6 cfg0.N
abbrev outZ0 : S100000x64.Idx → EReal := (dat0 (F := Ideal) V c).arrAt 7 cfg0.N

/-- The first layer's activation at `(i, j)`, from the arrays the call reads. -/
abbrev GH (i : Fin 100000) (j : Fin 128) : EReal :=
  max (((∑ k : Fin 128, inA0 V c (ix2 i k) * inWr0 V c (ix2 k j)) + ∑ k : Fin 128, inX0 V c (ix2 i k) * inWs0 V c (ix2 k j))
    + inB0 V c (ix1 j)) 0

/-- Its projection at `(i, j)`. -/
abbrev GZ (i : Fin 100000) (j : Fin 64) : EReal := ∑ k : Fin 128, GH V c i k * inP0 V c (ix2 k j)

/-- Row `p` of block `t`, of an array cut into blocks of 5000 rows, is the array's row `5000 t + p`. -/
theorem blkA_apply (p : Fin 5000) (k : Fin 128) (i : Fin 100000) (hi : i.val = 5000 * t.val + p.val) :
    (iblk0 (F := Ideal) V c 0 t : Vec Ideal S5000x128 .f32) (ix2 p k) = inA0 V c (ix2 i k) := by
  have h := idx_facts0 t
  refine congrArg (V c main_v15) (Shape.idx_ext₂ ?_ ?_)
  · show win0_0.index t (0 : Fin 2) * 5000 + 1 * p.val = i.val; omega
  · show win0_0.index t (1 : Fin 2) * 128 + 1 * k.val = k.val; omega
theorem blkX_apply (p : Fin 5000) (k : Fin 128) (i : Fin 100000) (hi : i.val = 5000 * t.val + p.val) :
    (iblk0 (F := Ideal) V c 1 t : Vec Ideal S5000x128 .f32) (ix2 p k) = inX0 V c (ix2 i k) := by
  have h := idx_facts0 t
  refine congrArg (V c main_arg0) (Shape.idx_ext₂ ?_ ?_)
  · show win0_1.index t (0 : Fin 2) * 5000 + 1 * p.val = i.val; omega
  · show win0_1.index t (1 : Fin 2) * 128 + 1 * k.val = k.val; omega

theorem blkWr_eq : (iblk0 (F := Ideal) V c 2 t : Vec Ideal S128x128 .f32) = inWr0 V c := by
  have h := idx_facts0 t
  refine funext fun y => congrArg (V c main_v16) (Shape.idx_ext₂ ?_ ?_)
  · show win0_2.index t (0 : Fin 2) * 128 + 1 * (y 0).val = (y 0).val; omega
  · show win0_2.index t (1 : Fin 2) * 128 + 1 * (y 1).val = (y 1).val; omega
theorem blkWs_eq : (iblk0 (F := Ideal) V c 3 t : Vec Ideal S128x128 .f32) = inWs0 V c := by
  have h := idx_facts0 t
  refine funext fun y => congrArg (V c main_v17) (Shape.idx_ext₂ ?_ ?_)
  · show win0_3.index t (0 : Fin 2) * 128 + 1 * (y 0).val = (y 0).val; omega
  · show win0_3.index t (1 : Fin 2) * 128 + 1 * (y 1).val = (y 1).val; omega
theorem blkB_eq : (iblk0 (F := Ideal) V c 4 t : Vec Ideal S128 .f32) = inB0 V c := by
  have h := idx_facts0 t
  refine funext fun y => congrArg (V c main_arg5) (funext fun a => Fin.ext ?_)
  match a with
  | ⟨0, _⟩ => show win0_4.index t (0 : Fin 1) * 128 + 1 * (y 0).val = (y 0).val; omega
theorem blkP_eq : (iblk0 (F := Ideal) V c 5 t : Vec Ideal S128x64 .f32) = inP0 V c := by
  have h := idx_facts0 t
  refine funext fun y => congrArg (V c main_v18) (Shape.idx_ext₂ ?_ ?_)
  · show win0_5.index t (0 : Fin 2) * 128 + 1 * (y 0).val = (y 0).val; omega
  · show win0_5.index t (1 : Fin 2) * 64 + 1 * (y 1).val = (y 1).val; omega

/-- Over block `t` of each row-tiled array the body's first result at `(p, q)` is the activation at row `5000 t + p`. -/
theorem pay1_blocks0 (p : Fin 5000) (q : Fin 128) (i : Fin 100000) (hi : i.val = 5000 * t.val + p.val) :
    k0_pay1 (F := Ideal) (iblk0 V c 0 t) (iblk0 V c 1 t) (iblk0 V c 2 t) (iblk0 V c 3 t) (iblk0 V c 4 t) (ix2 p q) = GH V c i q := by
  rw [pay1_apply, blkWr_eq, blkWs_eq, blkB_eq]
  simp only [GH, blkA_apply V c t p _ i hi, blkX_apply V c t p _ i hi]

theorem pay2_blocks0 (p : Fin 5000) (q : Fin 64) (i : Fin 100000) (hi : i.val = 5000 * t.val + p.val) :
    k0_pay2 (F := Ideal) (iblk0 V c 0 t) (iblk0 V c 1 t) (iblk0 V c 2 t) (iblk0 V c 3 t) (iblk0 V c 4 t) (iblk0 V c 5 t) (ix2 p q)
      = GZ V c i q := by
  rw [pay2_apply, blkP_eq]
  exact Finset.sum_congr rfl fun k _ => by rw [pay1_blocks0 V c t p k i hi]

/-- The result at grid point `t` is block `t` of one function of the whole arrays. -/
theorem flushedH_eq : (dat0 (F := Ideal) V c).flushed 6 t
    = ((cfg0.win 6).blk t).view.read (Elt Ideal) (fun y : S100000x128.Idx => GH V c (y 0) (y 1)) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S128x128) hz2, View.ld_unit_zero (S := S128) hz1]
  have h := idx_facts0 t
  have hN : cfg0.N = 20 := N_0
  have ht := t.isLt
  refine funext fun (y : S5000x128.Idx) => ?_
  obtain ⟨p, q, rfl⟩ : ∃ (p : Fin 5000) (q : Fin 128), y = ix2 p q := ⟨y 0, y 1, eq_ix2 y⟩
  rw [View.read_apply, show ((cfg0.win 6).blk t).view.emb (ix2 p q) = (ix2 (⟨5000 * t.val + p.val, by omega⟩ : Fin 100000) q : S100000x128.Idx) from
    Shape.idx_ext₂ (show win0_6.index t (0 : Fin 2) * 5000 + 1 * p.val = 5000 * t.val + p.val by omega)
      (show win0_6.index t (1 : Fin 2) * 128 + 1 * q.val = q.val by omega)]
  exact pay1_blocks0 V c t p q _ rfl

theorem flushedZ_eq : (dat0 (F := Ideal) V c).flushed 7 t
    = ((cfg0.win 7).blk t).view.read (Elt Ideal) (fun y : S100000x64.Idx => GZ V c (y 0) (y 1)) := by
  show (cfg0.win 7).cut (grid0.coords t) ((dat0 (F := Ideal) V c).after 7 t) = _
  rw [after0_7]
  unfold out0_7
  rw [View.canon_unit_zero hz2]
  simp only [View.ld_unit_zero (S := S5000x128) hz2, View.ld_unit_zero (S := S128x128) hz2, View.ld_unit_zero (S := S128) hz1,
    View.ld_unit_zero (S := S128x64) hz2]
  have h := idx_facts0 t
  have hN : cfg0.N = 20 := N_0
  have ht := t.isLt
  refine funext fun (y : S5000x64.Idx) => ?_
  obtain ⟨p, q, rfl⟩ : ∃ (p : Fin 5000) (q : Fin 64), y = ix2 p q := ⟨y 0, y 1, eq_ix2 y⟩
  rw [View.read_apply, show ((cfg0.win 7).blk t).view.emb (ix2 p q) = (ix2 (⟨5000 * t.val + p.val, by omega⟩ : Fin 100000) q : S100000x64.Idx) from
    Shape.idx_ext₂ (show win0_7.index t (0 : Fin 2) * 5000 + 1 * p.val = 5000 * t.val + p.val by omega)
      (show win0_7.index t (1 : Fin 2) * 64 + 1 * q.val = q.val by omega)]
  exact pay2_blocks0 V c t p q _ rfl

/-- Row `r` lies in block `r / 5000`: twenty blocks of 5000 rows cover the 100000 rows. -/
theorem coverH (i : S100000x128.Idx) : ∃ t : Fin cfg0.N, (cfg0.win 6).flush t = true ∧ i ∈ ((cfg0.win 6).blk t).view.set := by
  have hi0 := idx2_lt0 i
  have hi1 := idx2_lt1 i
  have hN : cfg0.N = 20 := N_0
  obtain ⟨t, ht⟩ : ∃ t : Fin cfg0.N, t.val = (i 0).val / 5000 := ⟨⟨(i 0).val / 5000, by omega⟩, rfl⟩
  have h := idx_facts0 t
  refine ⟨t, flush0_6 t, ?_⟩
  show i ∈ ((View.whole main_v19_0).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega
theorem coverZ (i : S100000x64.Idx) : ∃ t : Fin cfg0.N, (cfg0.win 7).flush t = true ∧ i ∈ ((cfg0.win 7).blk t).view.set := by
  have hi0 := idx2_lt0 i
  have hi1 := idx2_lt1 i
  have hN : cfg0.N = 20 := N_0
  obtain ⟨t, ht⟩ : ∃ t : Fin cfg0.N, t.val = (i 0).val / 5000 := ⟨⟨(i 0).val / 5000, by omega⟩, rfl⟩
  have h := idx_facts0 t
  refine ⟨t, flush0_7 t, ?_⟩
  show i ∈ ((View.whole main_v19_1).slice (win0_7.rect t)).set
  rw [View.set_slice_whole, Rect.mem_set_unit]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The blocks tile the array, so the array is that function. -/
theorem arrH_eq : outH0 V c = fun y => GH V c (y 0) (y 1) :=
  (dat0 (F := Ideal) V c).arrAt_eq_of_cover 6 _ (fun t _ => flushedH_eq V c t) coverH
theorem arrZ_eq : outZ0 V c = fun y => GZ V c (y 0) (y 1) :=
  (dat0 (F := Ideal) V c).arrAt_eq_of_cover 7 _ (fun t _ => flushedZ_eq V c t) coverZ

theorem arr0_6_apply (i : Fin 100000) (j : Fin 128) :
    outH0 V c (ix2 i j)
      = max (((∑ k : Fin 128, inA0 V c (ix2 i k) * inWr0 V c (ix2 k j)) + ∑ k : Fin 128, inX0 V c (ix2 i k) * inWs0 V c (ix2 k j))
             + inB0 V c (ix1 j)) 0 :=
  congrFun (arrH_eq V c) (ix2 i j)

theorem arr0_7_apply (i : Fin 100000) (j : Fin 64) :
    outZ0 V c (ix2 i j) = ∑ k : Fin 128, outH0 V c (ix2 i k) * inP0 V c (ix2 k j) := by
  rw [arrH_eq V c]
  exact congrFun (arrZ_eq V c) (ix2 i j)

end Cert.KernelIdeal.Reg

end
-- ==== Proof.KVal1.lean ====
import proofs.«425611_j42314017800422_2_alg».proof.Proof.KReg1
import proofs.«425611_j42314017800422_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem pay1_apply1 (x0 : Vec Ideal S5000x64 .f32) (x1 : Vec Ideal S5000x128 .bf16) (x2 : Vec Ideal S128x64 .f32) (x3 : Vec Ideal S64 .f32)
    (p : Fin 5000) (q : Fin 64) :
    k1_pay1 (F := Ideal) x0 x1 x2 x3 (ix2 p q)
      = max ((x0 (ix2 p q) + ∑ k : Fin 128, x1 (ix2 p k) * x2 (ix2 k q)) + x3 (ix1 q)) 0 := by
  unfold k1_pay1
  simp only [shapeCast_self]
  rw [truncf_apply, maximumf_apply, addf_apply, addf_apply, matmul_plain_apply dot_S5000x128_S128x64_S5000x64_1_0_0_1_n_n rfl,
    broadcast_apply, broadcastTo_1b_ab_apply, shapeCast_a_1a_apply]
  simp only [truncf_apply]
  exact congrArg (max _) Ideal.ofBits_zero_f32

theorem pay2_apply1 (x0 : Vec Ideal S5000x64 .f32) (x1 : Vec Ideal S5000x128 .bf16) (x2 : Vec Ideal S128x64 .f32) (x3 : Vec Ideal S64 .f32)
    (x4 : Vec Ideal S64x64 .f32) (p : Fin 5000) (q : Fin 64) :
    k1_pay2 (F := Ideal) x0 x1 x2 x3 x4 (ix2 p q)
      = ∑ k : Fin 64, k1_pay1 (F := Ideal) x0 x1 x2 x3 (ix2 p k) * x4 (ix2 k q) := by
  unfold k1_pay2
  simp only [shapeCast_self]
  rw [truncf_apply, matmul_plain_apply dot_S5000x64_S64x64_S5000x64_1_0_0_1_n_n rfl]
  simp only [truncf_apply]

theorem zero2 : (![0, 0] : Fin 2 → Nat) = fun _ => 0 := funext fun a => by fin_cases a <;> rfl
theorem zero1 : (![0] : Fin 1 → Nat) = fun _ => 0 := funext fun a => by fin_cases a; rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b)) (c : Dev nD) (t : Fin cfg1.N)

abbrev inA1 : S100000x64.Idx → EReal := V c main_v30
abbrev inH1 : S100000x128.Idx → EReal := V c main_v19_0
abbrev inWs1 : S128x64.Idx → EReal := V c main_v31
abbrev inB1 : S64.Idx → EReal := V c main_arg8
abbrev inP1 : S64x64.Idx → EReal := V c main_v32
abbrev outH1 : S100000x64.Idx → EReal := (dat1 (F := Ideal) V c).arrAt 5 cfg1.N
abbrev outZ1 : S100000x64.Idx → EReal := (dat1 (F := Ideal) V c).arrAt 6 cfg1.N

/-- The second layer's activation at `(i, j)`, from the arrays the call reads. -/
abbrev actG (i : Fin 100000) (j : Fin 64) : EReal :=
  max ((inA1 V c (ix2 i j) + ∑ k : Fin 128, inH1 V c (ix2 i k) * inWs1 V c (ix2 k j)) + inB1 V c (ix1 j)) 0

/-- Its projection at `(i, j)`. -/
abbrev projG (i : Fin 100000) (j : Fin 64) : EReal := ∑ k : Fin 64, actG V c i k * inP1 V c (ix2 k j)

/-- Row `p` of block `t`, of an array cut into blocks of 5000 rows, is the array's row `5000 t + p`. -/
theorem iblk1_0_apply (p : Fin 5000) (q : Fin 64) (r : Fin 100000) (hr : r.val = 5000 * t.val + p.val) :
    (iblk1 V c 0 t : Vec Ideal S5000x64 .f32) (ix2 p q) = inA1 V c (ix2 r q) := by
  have h := idx_facts1 t
  refine congrArg (V c main_v30) (Shape.idx_ext₂ ?_ ?_)
  · show win1_0.index t (0 : Fin 2) * 5000 + 1 * p.val = r.val; omega
  · show win1_0.index t (1 : Fin 2) * 64 + 1 * q.val = q.val; omega
theorem iblk1_1_apply (p : Fin 5000) (k : Fin 128) (r : Fin 100000) (hr : r.val = 5000 * t.val + p.val) :
    (iblk1 V c 1 t : Vec Ideal S5000x128 .bf16) (ix2 p k) = inH1 V c (ix2 r k) := by
  have h := idx_facts1 t
  refine congrArg (V c main_v19_0) (Shape.idx_ext₂ ?_ ?_)
  · show win1_1.index t (0 : Fin 2) * 5000 + 1 * p.val = r.val; omega
  · show win1_1.index t (1 : Fin 2) * 128 + 1 * k.val = k.val; omega
theorem iblk1_2_eq : (iblk1 V c 2 t : Vec Ideal S128x64 .f32) = inWs1 V c := by
  have h := idx_facts1 t
  refine funext fun y => congrArg (V c main_v31) (Shape.idx_ext₂ ?_ ?_)
  · show win1_2.index t (0 : Fin 2) * 128 + 1 * (y 0).val = (y 0).val; omega
  · show win1_2.index t (1 : Fin 2) * 64 + 1 * (y 1).val = (y 1).val; omega
theorem iblk1_3_eq : (iblk1 V c 3 t : Vec Ideal S64 .f32) = inB1 V c := by
  have h := idx_facts1 t
  refine funext fun y => congrArg (V c main_arg8) (funext fun a => Fin.ext ?_)
  match a with
  | ⟨0, _⟩ => show win1_3.index t (0 : Fin 1) * 64 + 1 * (y 0).val = (y 0).val; omega
theorem iblk1_4_eq : (iblk1 V c 4 t : Vec Ideal S64x64 .f32) = inP1 V c := by
  have h := idx_facts1 t
  refine funext fun y => congrArg (V c main_v32) (Shape.idx_ext₂ ?_ ?_)
  · show win1_4.index t (0 : Fin 2) * 64 + 1 * (y 0).val = (y 0).val; omega
  · show win1_4.index t (1 : Fin 2) * 64 + 1 * (y 1).val = (y 1).val; omega

/-- Over block `t` of each row-tiled array the body's first result at `(p, q)` is the activation at row `5000 t + p`. -/
theorem pay1_blocks (p : Fin 5000) (q : Fin 64) (r : Fin 100000) (hr : r.val = 5000 * t.val + p.val) :
    k1_pay1 (F := Ideal) (iblk1 V c 0 t) (iblk1 V c 1 t) (iblk1 V c 2 t) (iblk1 V c 3 t) (ix2 p q) = actG V c r q := by
  rw [pay1_apply1, iblk1_2_eq, iblk1_3_eq, iblk1_0_apply V c t p q r hr]
  simp only [actG, iblk1_1_apply V c t p _ r hr]

theorem pay2_blocks (p : Fin 5000) (q : Fin 64) (r : Fin 100000) (hr : r.val = 5000 * t.val + p.val) :
    k1_pay2 (F := Ideal) (iblk1 V c 0 t) (iblk1 V c 1 t) (iblk1 V c 2 t) (iblk1 V c 3 t) (iblk1 V c 4 t) (ix2 p q) = projG V c r q := by
  rw [pay2_apply1, iblk1_4_eq]
  exact Finset.sum_congr rfl fun k _ => by rw [pay1_blocks V c t p k r hr]

/-- The result at grid point `t` is block `t` of one function of the whole arrays. -/
theorem flushed1_5_eq : (dat1 (F := Ideal) V c).flushed 5 t
    = ((cfg1.win 5).blk t).view.read (Elt Ideal) (fun y : S100000x64.Idx => actG V c (y 0) (y 1)) := by
  show (cfg1.win 5).cut (grid1.coords t) ((dat1 (F := Ideal) V c).after 5 t) = _
  rw [after1_5]
  unfold out1_5
  rw [View.canon_unit_zero zero2]
  simp only [View.ld_unit_zero (S := S5000x64) zero2, View.ld_unit_zero (S := S5000x128) zero2,
    View.ld_unit_zero (S := S128x64) zero2, View.ld_unit_zero (S := S64) zero1]
  have h := idx_facts1 t
  have hN : cfg1.N = 20 := N_1
  have ht := t.isLt
  refine funext fun (y : S5000x64.Idx) => ?_
  obtain ⟨p, q, rfl⟩ : ∃ (p : Fin 5000) (q : Fin 64), y = ix2 p q := ⟨y 0, y 1, eq_ix2 y⟩
  rw [View.read_apply, show ((cfg1.win 5).blk t).view.emb (ix2 p q) = (ix2 (⟨5000 * t.val + p.val, by omega⟩ : Fin 100000) q : S100000x64.Idx) from
    Shape.idx_ext₂ (show win1_5.index t (0 : Fin 2) * 5000 + 1 * p.val = 5000 * t.val + p.val by omega)
      (show win1_5.index t (1 : Fin 2) * 64 + 1 * q.val = q.val by omega)]
  exact pay1_blocks V c t p q _ rfl

theorem flushed1_6_eq : (dat1 (F := Ideal) V c).flushed 6 t
    = ((cfg1.win 6).blk t).view.read (Elt Ideal) (fun y : S100000x64.Idx => projG V c (y 0) (y 1)) := by
  show (cfg1.win 6).cut (grid1.coords t) ((dat1 (F := Ideal) V c).after 6 t) = _
  rw [after1_6]
  unfold out1_6
  rw [View.canon_unit_zero zero2]
  simp only [View.ld_unit_zero (S := S5000x64) zero2, View.ld_unit_zero (S := S5000x128) zero2,
    View.ld_unit_zero (S := S128x64) zero2, View.ld_unit_zero (S := S64) zero1, View.ld_unit_zero (S := S64x64) zero2]
  have h := idx_facts1 t
  have hN : cfg1.N = 20 := N_1
  have ht := t.isLt
  refine funext fun (y : S5000x64.Idx) => ?_
  obtain ⟨p, q, rfl⟩ : ∃ (p : Fin 5000) (q : Fin 64), y = ix2 p q := ⟨y 0, y 1, eq_ix2 y⟩
  rw [View.read_apply, show ((cfg1.win 6).blk t).view.emb (ix2 p q) = (ix2 (⟨5000 * t.val + p.val, by omega⟩ : Fin 100000) q : S100000x64.Idx) from
    Shape.idx_ext₂ (show win1_6.index t (0 : Fin 2) * 5000 + 1 * p.val = 5000 * t.val + p.val by omega)
      (show win1_6.index t (1 : Fin 2) * 64 + 1 * q.val = q.val by omega)]
  exact pay2_blocks V c t p q _ rfl

/-- Row `r` lies in block `r / 5000`: twenty blocks of 5000 rows cover the 100000 rows. -/
theorem cover1_5 (i : S100000x64.Idx) : ∃ t : Fin cfg1.N, (cfg1.win 5).flush t = true ∧ i ∈ ((cfg1.win 5).blk t).view.set := by
  have hi0 := idx2_lt0 i
  have hi1 := idx2_lt1 i
  have hN : cfg1.N = 20 := N_1
  obtain ⟨t, ht⟩ : ∃ t : Fin cfg1.N, t.val = (i 0).val / 5000 := ⟨⟨(i 0).val / 5000, by omega⟩, rfl⟩
  have h := idx_facts1 t
  refine ⟨t, flush1_5 t, ?_⟩
  show i ∈ ((View.whole main_v33_0).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega
theorem cover1_6 (i : S100000x64.Idx) : ∃ t : Fin cfg1.N, (cfg1.win 6).flush t = true ∧ i ∈ ((cfg1.win 6).blk t).view.set := by
  have hi0 := idx2_lt0 i
  have hi1 := idx2_lt1 i
  have hN : cfg1.N = 20 := N_1
  obtain ⟨t, ht⟩ : ∃ t : Fin cfg1.N, t.val = (i 0).val / 5000 := ⟨⟨(i 0).val / 5000, by omega⟩, rfl⟩
  have h := idx_facts1 t
  refine ⟨t, flush1_6 t, ?_⟩
  show i ∈ ((View.whole main_v33_1).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The blocks tile the array, so the array is that function. -/
theorem final1_5 : outH1 V c = fun y => actG V c (y 0) (y 1) :=
  (dat1 (F := Ideal) V c).arrAt_eq_of_cover 5 _ (fun t _ => flushed1_5_eq V c t) cover1_5
theorem final1_6 : outZ1 V c = fun y => projG V c (y 0) (y 1) :=
  (dat1 (F := Ideal) V c).arrAt_eq_of_cover 6 _ (fun t _ => flushed1_6_eq V c t) cover1_6

theorem arr1_5_apply (i : Fin 100000) (j : Fin 64) :
    outH1 V c (ix2 i j)
      = max ((inA1 V c (ix2 i j) + ∑ k : Fin 128, inH1 V c (ix2 i k) * inWs1 V c (ix2 k j)) + inB1 V c (ix1 j)) 0 :=
  congrFun (final1_5 V c) (ix2 i j)

theorem arr1_6_apply (i : Fin 100000) (j : Fin 64) :
    outZ1 V c (ix2 i j) = ∑ k : Fin 64, outH1 V c (ix2 i k) * inP1 V c (ix2 k j) := by
  rw [final1_5 V c]
  exact congrFun (final1_6 V c) (ix2 i j)

end Cert.KernelIdeal.Reg

end
-- ==== Proof.LibKeepdims.lean ====
import Idealize.ShloMosaic.Lib.ValueLayout
import Idealize.ShloMosaic.PureOps.Ideal.Laws

namespace Idealize.ShloMosaic.ValueIdx

open Idealize.ShloMosaic

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

end Idealize.ShloMosaic.ValueIdx
-- ==== Proof.KVal2.lean ====
import proofs.«425611_j42314017800422_2_alg».proof.Proof.KReg2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«425611_j42314017800422_2_alg».proof.Proof.LibKeepdims
import proofs.«425611_j42314017800422_2_alg».proof.Proof.LibMatmul

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Pieces
variable {F : FTy → Type} [FloatOps F] (c : Dev nD) (i : grid2.Coords) (arg1 : Memref sig .tc .vmem S5888x64 .f32) (harg1 : arg1.IsWhole) (arg2 : Memref sig .tc .vmem S5888x64 .bf16) (harg2 : arg2.IsWhole) (arg3 : Memref sig .tc .vmem S64x64 .f32) (harg3 : arg3.IsWhole) (arg4 : Memref sig .tc .vmem S64 .f32) (harg4 : arg4.IsWhole) (arg5 : Memref sig .tc .vmem S1x5888 .i32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x1 .f32) (harg8 : arg8.IsWhole)
  (x0 : Vec F S5888x64 .f32) (x1 : Vec F S5888x64 .bf16) (x2 : Vec F S64x64 .f32) (x3 : Vec F S64 .f32) (x4 : Vec F S1x5888 .i32) (xs0 : Vec F S128x64 .f32) (xs1 : Vec F S128x1 .f32)

theorem p2_hz2 : (![0, 0] : Fin 2 → Nat) = fun _ => 0 := funext fun a => by fin_cases a <;> rfl
theorem p2_hz1 : (![0] : Fin 1 → Nat) = fun _ => 0 := funext fun a => by fin_cases a; rfl

-- Reading a whole array through the full rectangle at offset zero gives the array.
theorem p2_ld {S : Shape} {e : EltTy} {m : Memref sig .tc .vmem S e} (h : m.IsWhole) (X : S.Idx → Elt F e) {off : Fin S.rank → Nat} (hz : off = fun _ => 0) (inb) :
    View.readAt (Elt F) m.view (Rect.unit off S.size inb).toLoadRect (h.unread X) = X := by
  rw [View.readAt_eq_ld, h.read_unread, View.ld_unit_zero hz]

-- The first point: both accumulators are the block's contribution added to zero.
theorem p2_run_A (hc0 : cond2_0 i) (hc1 : ¬cond2_1 i) :
    (sout2_A_0 c i arg1 harg1 arg2 harg2 arg3 harg3 arg4 harg4 arg5 harg5 arg6 harg6 arg7 harg7 arg8 harg8 hc0 hc1 x0 x1 x2 x3 x4, sout2_A_1 c i arg1 harg1 arg2 harg2 arg3 harg3 arg4 harg4 arg5 harg5 arg6 harg6 arg7 harg7 arg8 harg8 hc0 hc1 x0 x1 x2 x3 x4) = (k2_pay6 x0 x1 x2 x3 x4 k2_pay3, k2_pay1 k2_pay4 (k2_pay7 x4)) := by
  unfold sout2_A_0 sout2_A_1
  rw [View.read_writes_eq_canon _ _ _ fun y => scover2_A_0 (y := y) .., View.read_writes_eq_canon _ _ _ fun y => scover2_A_1 (y := y) ..]
  unfold kernelRun2_A
  dsimp only
  sl_unfold_words
  simp only [View.canon_cons_unit_zero (S := ⟨2, _⟩) p2_hz2, View.readCov_unit_zero (S := ⟨2, _⟩) _ p2_hz2, p2_ld (S := ⟨2, _⟩) _ _ p2_hz2, p2_ld (S := ⟨1, _⟩) _ _ p2_hz1]

-- A point in between: the block's contribution is added to what the accumulators held.
theorem p2_run_B (hc0 : ¬cond2_0 i) (hc1 : ¬cond2_1 i) :
    (sout2_B_0 c i arg1 harg1 arg2 harg2 arg3 harg3 arg4 harg4 arg5 harg5 arg6 harg6 arg7 harg7 arg8 harg8 hc0 hc1 x0 x1 x2 x3 x4 xs0 xs1, sout2_B_1 c i arg1 harg1 arg2 harg2 arg3 harg3 arg4 harg4 arg5 harg5 arg6 harg6 arg7 harg7 arg8 harg8 hc0 hc1 x0 x1 x2 x3 x4 xs0 xs1) = (k2_pay6 x0 x1 x2 x3 x4 xs0, k2_pay1 xs1 (k2_pay7 x4)) := by
  unfold sout2_B_0 sout2_B_1
  rw [View.read_writes_eq_canon _ _ _ fun y => scover2_B_0 (y := y) .., View.read_writes_eq_canon _ _ _ fun y => scover2_B_1 (y := y) ..]
  unfold kernelRun2_B
  dsimp only
  sl_unfold_words
  simp only [View.canon_cons_unit_zero (S := ⟨2, _⟩) p2_hz2, View.readCov_unit_zero (S := ⟨2, _⟩) _ p2_hz2, p2_ld (S := ⟨2, _⟩) _ _ p2_hz2, p2_ld (S := ⟨1, _⟩) _ _ p2_hz1]

-- The last point: the same update, and the result is the quotient of the new sums by the new counts.
theorem p2_run_C (hc0 : ¬cond2_0 i) (hc1 : cond2_1 i) :
    (out2_C_5 c i arg1 harg1 arg2 harg2 arg3 harg3 arg4 harg4 arg5 harg5 arg6 harg6 arg7 harg7 arg8 harg8 hc0 hc1 x0 x1 x2 x3 x4 xs0 xs1, sout2_C_0 c i arg1 harg1 arg2 harg2 arg3 harg3 arg4 harg4 arg5 harg5 arg6 harg6 arg7 harg7 arg8 harg8 hc0 hc1 x0 x1 x2 x3 x4 xs0 xs1, sout2_C_1 c i arg1 harg1 arg2 harg2 arg3 harg3 arg4 harg4 arg5 harg5 arg6 harg6 arg7 harg7 arg8 harg8 hc0 hc1 x0 x1 x2 x3 x4 xs0 xs1)
      = (k2_pay2 (k2_pay6 x0 x1 x2 x3 x4 xs0) (k2_pay1 xs1 (k2_pay7 x4)), k2_pay6 x0 x1 x2 x3 x4 xs0, k2_pay1 xs1 (k2_pay7 x4)) := by
  unfold out2_C_5 sout2_C_0 sout2_C_1
  rw [View.read_writes_eq_canon _ _ _ fun y => cover2_C_5 (y := y) .., View.read_writes_eq_canon _ _ _ fun y => scover2_C_0 (y := y) .., View.read_writes_eq_canon _ _ _ fun y => scover2_C_1 (y := y) ..]
  unfold kernelRun2_C
  dsimp only
  sl_unfold_words
  simp only [View.canon_cons_unit_zero (S := ⟨2, _⟩) p2_hz2, View.readCov_unit_zero (S := ⟨2, _⟩) _ p2_hz2, p2_ld (S := ⟨2, _⟩) _ _ p2_hz2, p2_ld (S := ⟨1, _⟩) _ _ p2_hz1]

end Pieces

-- The widened bit of an equality test, read as a signed integer, is 1 when the words agree and 0 otherwise.
theorem p2_mask_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b <;> simp [IntOp.cmpi, h, beq_eq_false_iff_ne.mpr]

-- The block's activation at row r, column j: max((A + H · Ws) + b, 0).
def p2_hblk (x0 : Vec Ideal S5888x64 .f32) (x1 : Vec Ideal S5888x64 .bf16) (x2 : Vec Ideal S64x64 .f32) (x3 : Vec Ideal S64 .f32)
    (r : Fin 5888) (j : Fin 64) : EReal :=
  max ((x0 (ix2 r j) + ∑ k : Fin 64, x1 (ix2 r k) * x2 (ix2 k j)) + x3 (ix1 j)) 0
-- 1 when the block's row r carries graph number g, else 0.
def p2_mblk (x4 : Vec Ideal S1x5888 .i32) (g : Fin 128) (r : Fin 5888) : EReal :=
  if BitVec.ofNat 32 g.val = x4 (ix2 (0 : Fin 1) r) then 1 else 0

theorem p2_pay7_apply (x4 : Vec Ideal S1x5888 .i32) (g : Fin 128) (r : Fin 5888) :
    k2_pay7 (F := Ideal) x4 (ix2 g r) = p2_mblk x4 g r := by
  unfold k2_pay7 k2_pay5 p2_mblk
  simp only [shapeCast_self]
  rw [sitofp_apply, extui_apply]
  show FloatOps.sitofp (F := Ideal) .f32 ((IntOp.cmpi .eq (iota .tc S128x5888 32 [0] iota_S128x5888_d0_w32 (ix2 g r)) (broadcastTo S128x5888 x4 broadcasts_S1x5888_S128x5888 (ix2 g r))).setWidth 32) = _
  rw [iota_single_apply, broadcastTo_1b_ab_apply]
  exact p2_mask_word _ _

-- The sums' update at (g, j): the old entry plus the sum over rows of mask(g, r) · h(r, j).
theorem p2_pay6_apply (x0 : Vec Ideal S5888x64 .f32) (x1 : Vec Ideal S5888x64 .bf16) (x2 : Vec Ideal S64x64 .f32) (x3 : Vec Ideal S64 .f32)
    (x4 : Vec Ideal S1x5888 .i32) (xs0 : Vec Ideal S128x64 .f32) (g : Fin 128) (j : Fin 64) :
    k2_pay6 (F := Ideal) x0 x1 x2 x3 x4 xs0 (ix2 g j)
      = xs0 (ix2 g j) + ∑ r : Fin 5888, p2_mblk x4 g r * p2_hblk x0 x1 x2 x3 r j := by
  unfold k2_pay6
  simp only [shapeCast_self]
  rw [addf_apply, matmul_plain_apply dot_S128x5888_S5888x64_S128x64_1_0_0_1_n_n rfl]
  refine congrArg (xs0 (ix2 g j) + ·) (Finset.sum_congr rfl fun r _ => ?_)
  rw [truncf_apply, truncf_apply, maximumf_apply, addf_apply, addf_apply, matmul_plain_apply dot_S5888x64_S64x64_S5888x64_1_0_0_1_n_n rfl, broadcast_apply,
    broadcastTo_1b_ab_apply, shapeCast_a_1a_apply]
  simp only [truncf_apply]
  rw [show (Scalar.ofBits (F := Ideal) .f32 0x00000000#32 : Ideal .f32) = 0 from Ideal.ofBits_zero_f32]
  exact congrArg (· * p2_hblk x0 x1 x2 x3 r j) (p2_pay7_apply x4 g r)

-- The counts' update at (g, 0): the old entry plus the row sum.
theorem p2_pay1_apply (xs1 : Vec Ideal S128x1 .f32) (v35 : FVec Ideal S128x5888 .f32) (g : Fin 128) (u : Fin 1) :
    k2_pay1 (F := Ideal) xs1 v35 (ix2 g u) = xs1 (ix2 g u) + ∑ r : Fin 5888, v35 (ix2 g r) := by
  unfold k2_pay1
  simp only [shapeCast_self]
  rw [addf_apply, shapeCast_a_a1_apply]
  refine congrArg (xs1 (ix2 g u) + ·) ((Ideal.multiReduction_add_single v35 _ reduces_S128x5888_S128 _ _ (ix1 g)).trans ?_)
  show ∑ r : Fin 5888, v35 (reduces_S128x5888_S128.lift (ix1 g) r) = _
  exact Finset.sum_congr rfl fun r _ => by rw [lift_cols_eq]

theorem p2_pay3_apply (g : Fin 128) (j : Fin 64) : k2_pay3 (F := Ideal) (ix2 g j) = 0 := by
  unfold k2_pay3
  simp only [shapeCast_self]
  exact Ideal.ofBits_zero_f32
theorem p2_pay4_apply (g : Fin 128) (u : Fin 1) : k2_pay4 (F := Ideal) (ix2 g u) = 0 := by
  unfold k2_pay4
  simp only [shapeCast_self]
  exact Ideal.ofBits_zero_f32

-- The quotient at (g, j): the sum there over graph g's count, at least one.
theorem p2_pay2_apply (s : Vec Ideal S128x64 .f32) (cnt : Vec Ideal S128x1 .f32) (g : Fin 128) (j : Fin 64) :
    k2_pay2 (F := Ideal) s cnt (ix2 g j) = Ideal.div (s (ix2 g j)) (max (cnt (ix2 g (0 : Fin 1))) 1) := by
  unfold k2_pay2
  rw [divf_apply]
  refine congrArg (Ideal.div (s (ix2 g j))) ((broadcastTo_apply _ broadcasts_S128x1_S128x64 (ix2 g j) (ix2 g (0 : Fin 1)) (fun a => by
    match a with
    | ⟨0, _⟩ => rfl
    | ⟨1, _⟩ => rfl)).trans ?_)
  rw [maximumf_apply, broadcast_apply]
  exact congrArg (max (cnt (ix2 g (0 : Fin 1)))) Ideal.ofBits_one_f32

-- The index maps of the six arrays' blocks at point t.
theorem p2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = t.val
    ∧ win2_5.index t (0 : Fin 2) = 0 ∧ win2_5.index t (1 : Fin 2) = 0 :=
  (by decide +kernel : ∀ t : Fin grid2.N, _)

theorem p2_N : cfg2.N = 17 := N_2
theorem p2_h16 : 16 < cfg2.N := by rw [p2_N]; decide

variable (V : (c : Dev nD) → (b : Ref sig .tc) → Buf (Elt Ideal) ((c : Thread nD τ).loc b))

abbrev inA2 (c : Dev nD) : S100096x64.Idx → EReal := V c main_v46
abbrev inH2 (c : Dev nD) : S100096x64.Idx → EReal := V c main_v47
abbrev inWs2 (c : Dev nD) : S64x64.Idx → EReal := V c main_v45
abbrev inB2 (c : Dev nD) : S64.Idx → EReal := V c main_arg11
abbrev inG2 (c : Dev nD) : S1x100096.Idx → BitVec 32 := V c main_v49
abbrev out2 (c : Dev nD) : S128x64.Idx → EReal := (dat2 (F := Ideal) V c).arrAt 5 cfg2.N

-- The last layer's activation of padded row n, column j.
def h3p (c : Dev nD) (n : Fin 100096) (j : Fin 64) : EReal :=
  max ((inA2 V c (ix2 n j) + ∑ k : Fin 64, inH2 V c (ix2 n k) * inWs2 V c (ix2 k j)) + inB2 V c (ix1 j)) 0
-- 1 when padded row n belongs to graph g, else 0.
def mask2 (c : Dev nD) (g : Fin 128) (n : Fin 100096) : EReal :=
  if BitVec.ofNat 32 g.val = inG2 V c (ix2 (0 : Fin 1) n) then 1 else 0

variable (c : Dev nD) (t : Fin cfg2.N) (g : Fin 128) (j : Fin 64)

theorem p2_iblk_0_apply (p : Fin 5888) (q : Fin 64) (n : Fin 100096) (hn : n.val = 5888 * t.val + p.val) :
    (iblk2 V c 0 t : Vec Ideal S5888x64 .f32) (ix2 p q) = inA2 V c (ix2 n q) := by
  obtain ⟨e0, e1, -⟩ := p2_idx_facts t
  unfold iblk2
  rw [View.read_apply]
  refine congrArg (V c main_v46) (funext fun a => Fin.ext ?_)
  match a with
  | ⟨0, _⟩ => show win2_0.index t (0 : Fin 2) * 5888 + 1 * p.val = n.val; omega
  | ⟨1, _⟩ => show win2_0.index t (1 : Fin 2) * 64 + 1 * q.val = q.val; omega

theorem p2_iblk_1_apply (p : Fin 5888) (k : Fin 64) (n : Fin 100096) (hn : n.val = 5888 * t.val + p.val) :
    (iblk2 V c 1 t : Vec Ideal S5888x64 .bf16) (ix2 p k) = inH2 V c (ix2 n k) := by
  obtain ⟨-, -, e0, e1, -⟩ := p2_idx_facts t
  unfold iblk2
  rw [View.read_apply]
  refine congrArg (V c main_v47) (funext fun a => Fin.ext ?_)
  match a with
  | ⟨0, _⟩ => show win2_1.index t (0 : Fin 2) * 5888 + 1 * p.val = n.val; omega
  | ⟨1, _⟩ => show win2_1.index t (1 : Fin 2) * 64 + 1 * k.val = k.val; omega

theorem p2_iblk_2_apply (k : Fin 64) (q : Fin 64) :
    (iblk2 V c 2 t : Vec Ideal S64x64 .f32) (ix2 k q) = inWs2 V c (ix2 k q) := by
  obtain ⟨-, -, -, -, e0, e1, -⟩ := p2_idx_facts t
  unfold iblk2
  rw [View.read_apply]
  refine congrArg (V c main_v45) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

theorem p2_iblk_3_apply (q : Fin 64) :
    (iblk2 V c 3 t : Vec Ideal S64 .f32) (ix1 q) = inB2 V c (ix1 q) := by
  obtain ⟨-, -, -, -, -, -, e0, -⟩ := p2_idx_facts t
  unfold iblk2
  rw [View.read_apply]
  refine congrArg (V c main_arg11) (funext fun a => Fin.ext ?_)
  match a with
  | ⟨0, _⟩ => show win2_3.index t (0 : Fin 1) * 64 + 1 * q.val = q.val; omega

theorem p2_iblk_4_apply (p : Fin 5888) (n : Fin 100096) (hn : n.val = 5888 * t.val + p.val) :
    (iblk2 V c 4 t : Vec Ideal S1x5888 .i32) (ix2 (0 : Fin 1) p) = inG2 V c (ix2 (0 : Fin 1) n) := by
  obtain ⟨-, -, -, -, -, -, -, e0, e1, -⟩ := p2_idx_facts t
  unfold iblk2
  rw [View.read_apply]
  refine congrArg (V c main_v49) (funext fun a => Fin.ext ?_)
  match a with
  | ⟨0, _⟩ => show win2_4.index t (0 : Fin 2) * 1 + 1 * 0 = 0; omega
  | ⟨1, _⟩ => show win2_4.index t (1 : Fin 2) * 5888 + 1 * p.val = n.val; omega

-- Row p of block t is padded row 5888 t + p of the whole arrays.
theorem p2_hblk_blocks (p : Fin 5888) (n : Fin 100096) (hn : n.val = 5888 * t.val + p.val) :
    p2_hblk (iblk2 V c 0 t) (iblk2 V c 1 t) (iblk2 V c 2 t) (iblk2 V c 3 t) p j = h3p V c n j := by
  unfold p2_hblk h3p
  rw [p2_iblk_0_apply V c t p j n hn, p2_iblk_3_apply V c t j]
  refine congrArg (fun s => max ((inA2 V c (ix2 n j) + s) + inB2 V c (ix1 j)) 0) (Finset.sum_congr rfl fun k _ => ?_)
  rw [p2_iblk_1_apply V c t p k n hn, p2_iblk_2_apply V c t k j]
theorem p2_mblk_blocks (p : Fin 5888) (n : Fin 100096) (hn : n.val = 5888 * t.val + p.val) :
    p2_mblk (iblk2 V c 4 t) g p = mask2 V c g n := by
  unfold p2_mblk mask2
  rw [p2_iblk_4_apply V c t p n hn]

-- Padded row m's term of graph g's masked column sum, and of its count; zero past the last row.
def p2_term (m : ℕ) : EReal :=
  if h : m < 100096 then mask2 V c g ⟨m, h⟩ * h3p V c ⟨m, h⟩ j else 0
def p2_cterm (m : ℕ) : EReal :=
  if h : m < 100096 then mask2 V c g ⟨m, h⟩ else 0

-- Point t's update of the sums and of the counts.
abbrev p2_S (xs0 : Vec Ideal S128x64 .f32) : Vec Ideal S128x64 .f32 := k2_pay6 (F := Ideal) (iblk2 V c 0 t) (iblk2 V c 1 t) (iblk2 V c 2 t) (iblk2 V c 3 t) (iblk2 V c 4 t) xs0
abbrev p2_C (xs1 : Vec Ideal S128x1 .f32) : Vec Ideal S128x1 .f32 := k2_pay1 (F := Ideal) xs1 (k2_pay7 (iblk2 V c 4 t))

theorem p2_lt (r : Fin 5888) : 5888 * t.val + r.val < 100096 := by
  have := lt_of_lt_of_eq t.isLt p2_N; have := r.isLt; omega

-- Point t's updates add the terms of rows 5888 t to 5888 t + 5887.
theorem p2_upd_sums (xs0 : Vec Ideal S128x64 .f32) :
    p2_S V c t xs0 (ix2 g j) = xs0 (ix2 g j) + ∑ x ∈ Finset.range 5888, p2_term V c g j (5888 * t.val + x) := by
  refine (p2_pay6_apply _ _ _ _ _ xs0 g j).trans (congrArg (xs0 (ix2 g j) + ·) ?_)
  rw [Finset.sum_range]
  refine Finset.sum_congr rfl fun r _ => ?_
  rw [p2_mblk_blocks V c t g r ⟨_, p2_lt t r⟩ rfl, p2_hblk_blocks V c t j r ⟨_, p2_lt t r⟩ rfl, p2_term, dif_pos (p2_lt t r)]
theorem p2_upd_cnts (xs1 : Vec Ideal S128x1 .f32) :
    p2_C V c t xs1 (ix2 g (0 : Fin 1)) = xs1 (ix2 g (0 : Fin 1)) + ∑ x ∈ Finset.range 5888, p2_cterm V c g (5888 * t.val + x) := by
  refine (p2_pay1_apply xs1 _ g 0).trans (congrArg (xs1 (ix2 g (0 : Fin 1)) + ·) ?_)
  rw [Finset.sum_range]
  refine Finset.sum_congr rfl fun r _ => ?_
  rw [p2_pay7_apply, p2_mblk_blocks V c t g r ⟨_, p2_lt t r⟩ rfl, p2_cterm, dif_pos (p2_lt t r)]

abbrev p2_sums (n : ℕ) (hn : n < cfg2.N) : S128x64.Idx → EReal := (outsAt2 (F := Ideal) V c n hn).2.1
abbrev p2_cnts (n : ℕ) (hn : n < cfg2.N) : S128x1.Idx → EReal := (outsAt2 (F := Ideal) V c n hn).2.2

theorem p2_outs_A (h0 : t.val % 17 = 0) :
    (outsAt2 (F := Ideal) V c t.val t.isLt).2 = (p2_S V c t (k2_pay3 (F := Ideal)), p2_C V c t (k2_pay4 (F := Ideal))) :=
  (congrArg Prod.snd (outsAt2_A V c t h0 (by omega))).trans (p2_run_A ..)
theorem p2_outs_C (h0 : ¬t.val % 17 = 0) (h1 : t.val % 17 = 16) :
    outsAt2 (F := Ideal) V c t.val t.isLt = (k2_pay2 (p2_S V c t (p2_sums V c (t.val - 1) (Nat.lt_of_le_of_lt (Nat.sub_le _ _) t.isLt))) (p2_C V c t (p2_cnts V c (t.val - 1) (Nat.lt_of_le_of_lt (Nat.sub_le _ _) t.isLt))),
      p2_S V c t (p2_sums V c (t.val - 1) (Nat.lt_of_le_of_lt (Nat.sub_le _ _) t.isLt)), p2_C V c t (p2_cnts V c (t.val - 1) (Nat.lt_of_le_of_lt (Nat.sub_le _ _) t.isLt))) :=
  (outsAt2_C V c t h0 h1).trans (p2_run_C ..)
-- Every point after the first updates what the point before left.
theorem p2_outs_S (h0 : ¬t.val % 17 = 0) :
    (outsAt2 (F := Ideal) V c t.val t.isLt).2 = (p2_S V c t (p2_sums V c (t.val - 1) (Nat.lt_of_le_of_lt (Nat.sub_le _ _) t.isLt)), p2_C V c t (p2_cnts V c (t.val - 1) (Nat.lt_of_le_of_lt (Nat.sub_le _ _) t.isLt))) := by
  by_cases h1 : t.val % 17 = 16
  · exact congrArg Prod.snd (p2_outs_C V c t h0 h1)
  · exact (congrArg Prod.snd (outsAt2_B V c t h0 h1)).trans (p2_run_B ..)

-- What starts as block 0's terms and gains block n's terms at point n holds the first 5888 (n + 1) terms after point n.
theorem p2_acc (f : ℕ → EReal) (a : (n : ℕ) → n < cfg2.N → EReal)
    (h0 : ∀ hn, a 0 hn = ∑ x ∈ Finset.range 5888, f (5888 * 0 + x))
    (hs : ∀ n hn, a (n + 1) hn = a n (Nat.lt_of_succ_lt hn) + ∑ x ∈ Finset.range 5888, f (5888 * (n + 1) + x)) :
    ∀ n hn, a n hn = ∑ m ∈ Finset.range (5888 * (n + 1)), f m
  | 0, hn => by rw [h0, Nat.mul_add, Nat.mul_one, Finset.sum_range_add, Nat.mul_zero, Finset.sum_range_zero, zero_add]
  | n + 1, hn => by rw [hs, p2_acc f a h0 hs n, Nat.mul_add 5888 (n + 1) 1, Nat.mul_one, Finset.sum_range_add]

theorem p2_ne {n : ℕ} (hn : n + 1 < cfg2.N) : ¬(⟨n + 1, hn⟩ : Fin cfg2.N).val % 17 = 0 := by
  have := lt_of_lt_of_eq hn p2_N; show ¬(n + 1) % 17 = 0; omega

-- After the last point the accumulators hold the sums over all 100096 padded rows.
theorem p2_sums_last : p2_sums V c 16 p2_h16 (ix2 g j) = ∑ n : Fin 100096, mask2 V c g n * h3p V c n j := by
  refine (p2_acc (p2_term V c g j) (fun n hn => p2_sums V c n hn (ix2 g j))
    (fun hn => (congrFun (congrArg Prod.fst (p2_outs_A V c ⟨0, hn⟩ rfl)) _).trans ((p2_upd_sums V c ⟨0, hn⟩ g j _).trans (by rw [p2_pay3_apply, zero_add])))
    (fun n hn => (congrFun (congrArg Prod.fst (p2_outs_S V c ⟨n + 1, hn⟩ (p2_ne hn))) _).trans (p2_upd_sums V c ⟨n + 1, hn⟩ g j _)) 16 p2_h16).trans ?_
  rw [show 5888 * (16 + 1) = 100096 from rfl, Finset.sum_range]
  exact Finset.sum_congr rfl fun n _ => dif_pos n.isLt
theorem p2_cnts_last : p2_cnts V c 16 p2_h16 (ix2 g (0 : Fin 1)) = ∑ n : Fin 100096, mask2 V c g n := by
  refine (p2_acc (p2_cterm V c g) (fun n hn => p2_cnts V c n hn (ix2 g (0 : Fin 1)))
    (fun hn => (congrFun (congrArg Prod.snd (p2_outs_A V c ⟨0, hn⟩ rfl)) _).trans ((p2_upd_cnts V c ⟨0, hn⟩ g _).trans (by rw [p2_pay4_apply, zero_add])))
    (fun n hn => (congrFun (congrArg Prod.snd (p2_outs_S V c ⟨n + 1, hn⟩ (p2_ne hn))) _).trans (p2_upd_cnts V c ⟨n + 1, hn⟩ g _)) 16 p2_h16).trans ?_
  rw [show 5888 * (16 + 1) = 100096 from rfl, Finset.sum_range]
  exact Finset.sum_congr rfl fun n _ => dif_pos n.isLt

abbrev p2_result : Buf (Elt Ideal) ((c : Thread nD τ).loc main_v50) := (outsAt2 (F := Ideal) V c 16 p2_h16).1

theorem p2_hz5 : (fun a => win2_5.index t a * main_v50.ty.shape.size a) = fun _ => 0 := by
  obtain ⟨-, -, -, -, -, -, -, -, -, e0, e1⟩ := p2_idx_facts t
  funext a
  match a with
  | ⟨0, _⟩ => show win2_5.index t (0 : Fin 2) * _ = 0; rw [e0, Nat.zero_mul]
  | ⟨1, _⟩ => show win2_5.index t (1 : Fin 2) * _ = 0; rw [e1, Nat.zero_mul]

-- What the last point stores is the whole [128, 64] result.
theorem p2_flushed_eq (hf : (cfg2.win 5).flush t = true) :
    (dat2 (F := Ideal) V c).flushed 5 t = ((cfg2.win 5).blk t).view.read (Elt Ideal) (p2_result V c) := by
  obtain rfl : t = (⟨16, p2_h16⟩ : Fin cfg2.N) := Fin.ext (show t.val = 16 by have := (flush2_5 t).mp hf; have := lt_of_lt_of_eq t.isLt p2_N; omega)
  show (cfg2.win 5).cut (grid2.coords (⟨16, p2_h16⟩ : Fin cfg2.N)) ((dat2 (F := Ideal) V c).after 5 (⟨16, p2_h16⟩ : Fin cfg2.N)) = _
  rw [after2_5]
  exact (Memref.read_access_unit_zero (Elt Ideal) main_v50 (p2_hz5 _) (fun a => by rw [congrFun (p2_hz5 _) a]; simp) (p2_result V c)).symm

theorem p2_cover (i : S128x64.Idx) : ∃ t : Fin cfg2.N, (cfg2.win 5).flush t = true ∧ i ∈ ((cfg2.win 5).blk t).view.set := by
  refine ⟨⟨16, p2_h16⟩, (flush2_5 _).mpr rfl, ?_⟩
  show i ∈ ((View.whole main_v50).slice (win2_5.rect (⟨16, p2_h16⟩ : Fin cfg2.N))).set
  rw [View.set_slice_whole]
  exact View.mem_set_unit_zero (p2_hz5 _) _ i

-- The result at (g, j): graph g's masked column sum over its masked count, at least one.
theorem arr2_5_apply (c : Dev nD) (g : Fin 128) (j : Fin 64) :
    out2 V c (ix2 g j)
      = Ideal.div (∑ n : Fin 100096, mask2 V c g n * h3p V c n j) (max (∑ n : Fin 100096, mask2 V c g n) 1) := by
  show (dat2 (F := Ideal) V c).arrAt 5 cfg2.N (ix2 g j) = _
  rw [(dat2 (F := Ideal) V c).arrAt_eq_of_cover 5 (p2_result V c) (p2_flushed_eq V c) p2_cover, ← p2_sums_last, ← p2_cnts_last]
  unfold p2_result p2_sums p2_cnts
  rw [p2_outs_C V c ⟨16, p2_h16⟩ (by decide) (by decide)]
  exact p2_pay2_apply _ _ g j

end Cert.KernelIdeal.Reg

end
-- ==== Proof.LibRowGather.lean ====
import Idealize.ShloMosaic.PureOps.ShapeOps
import Idealize.ShloMosaic.Lib.ValueIdx

namespace Idealize.ShloMosaic.RowGather

open Idealize.ShloMosaic Idealize.ShloMosaic.ValueIdx

theorem ix2_val_zero {n0 n1 : Nat} (a : Fin n0) (b : Fin n1) (i : Fin 2) (hi : i.val = 0) : (ix2 a b i).val = a.val := by
  match i, hi with
  | ⟨0, _⟩, _ => rfl

theorem ix2_val_one {n0 n1 : Nat} (a : Fin n0) (b : Fin n1) (i : Fin 2) (hi : i.val = 1) : (ix2 a b i).val = b.val := by
  match i, hi with
  | ⟨1, _⟩, _ => rfl

def clampRow (N : Nat) (hN : 0 < N) {w : Nat} (i : BitVec w) : Fin N := ⟨min i.toInt.toNat (N - 1), by omega⟩

-- Element (p, q) of a row gather: the table at (position p's start number clamped into the table, q).
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Graph.lean ====
import proofs.«425611_j42314017800422_2_alg».proof.Proof.LibRowGather
import Idealize.ShloMosaic.PureOps.ShapeOps
import Idealize.ShloMosaic.Lib.ValueIdx

namespace Cert.Graph

open Idealize.ShloMosaic Idealize.ShloMosaic.ValueIdx

abbrev EdgeArr := (⟨2, ![2, 1600000]⟩ : Shape).Idx → BitVec 32

abbrev BatchArr := (⟨1, ![100000]⟩ : Shape).Idx → BitVec 32

def srcWord (ei : EdgeArr) (e : Fin 1600000) : BitVec 32 := ei (ix2 (0 : Fin 2) e)

def dstWord (ei : EdgeArr) (e : Fin 1600000) : BitVec 32 := ei (ix2 (1 : Fin 2) e)

-- A negative source number has the node count added once; the result is clamped into the table.
def srcWrap (ei : EdgeArr) (e : Fin 1600000) : BitVec 32 :=
  Scalar.select (IntOp.cmpi .slt (srcWord ei e) 0#32) (IntOp.addi (srcWord ei e) 100000#32) (srcWord ei e)

def gsrc (ei : EdgeArr) (e : Fin 1600000) : Fin 100000 := RowGather.clampRow 100000 (by decide) (srcWrap ei e)

-- Edge `e` lands on node `i` when its destination number, read signed, is `i`; any other number lands nowhere.
def hit (ei : EdgeArr) (i : Fin 100000) (e : Fin 1600000) : Prop := (dstWord ei e).toInt = (i.val : ℤ)
instance (ei : EdgeArr) (i : Fin 100000) : DecidablePred (hit ei i) := fun _ => inferInstanceAs (Decidable (_ = _))

def hitB (bt : BatchArr) (g : Fin 128) (n : Fin 100000) : Prop := (bt (ix1 n)).toInt = (g.val : ℤ)
instance (bt : BatchArr) (g : Fin 128) : DecidablePred (hitB bt g) := fun _ => inferInstanceAs (Decidable (_ = _))

end Cert.Graph
-- ==== Proof.LibScatterRows.lean ====
import Idealize.ShloMosaic.PureOps.Ideal
import Idealize.ShloMosaic.PureOps.Contract
import Idealize.ShloMosaic.Lib.ValueIdx

namespace Cert.ClassStats.Scatter

open Idealize.ShloMosaic Idealize.ShloMosaic.ValueIdx

theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

-- The updates landing on (c, f) are the entries (r, f) of the rows with `hit r`.
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.Spec.lean ====
import Idealize.ShloMosaic.PureOps.Ideal
import Mathlib.Data.EReal.Basic
import Mathlib.Data.EReal.Operations
import Mathlib.Algebra.BigOperators.Group.Finset.Basic
import Mathlib.Algebra.BigOperators.Group.Finset.Sigma
import Mathlib.Algebra.BigOperators.Ring.Finset

noncomputable section

namespace Cert.Spec

open Idealize.ShloMosaic

def IsReal (a : EReal) : Prop := ∃ r : ℝ, a = (r : EReal)

theorem isReal_zero : IsReal 0 := ⟨0, rfl⟩

theorem isReal_add {a b : EReal} : IsReal a → IsReal b → IsReal (a + b) := by
  rintro ⟨r, rfl⟩ ⟨s, rfl⟩; exact ⟨r + s, (EReal.coe_add r s).symm⟩

theorem isReal_mul {a b : EReal} : IsReal a → IsReal b → IsReal (a * b) := by
  rintro ⟨r, rfl⟩ ⟨s, rfl⟩; exact ⟨r * s, (EReal.coe_mul r s).symm⟩

theorem isReal_max_zero {a : EReal} (ha : IsReal a) : IsReal (max a 0) := by
  rcases max_choice a 0 with h | h <;> rw [h]
  exacts [ha, isReal_zero]

theorem isReal_ite {p : Prop} [Decidable p] {a : EReal} (ha : IsReal a) : IsReal (if p then a else 0) := by
  split
  exacts [ha, isReal_zero]

theorem isReal_sum {ι : Type*} (s : Finset ι) (f : ι → EReal) (hf : ∀ i ∈ s, IsReal (f i)) :
    IsReal (∑ i ∈ s, f i) :=
  Finset.sum_induction f IsReal (fun _ _ => isReal_add) isReal_zero hf

-- In ℝ multiplication distributes over addition; on the extended reals it need not.
theorem add_mul_of_isReal {a b c : EReal} : IsReal a → IsReal b → IsReal c → (a + b) * c = a * c + b * c := by
  rintro ⟨r, rfl⟩ ⟨s, rfl⟩ ⟨t, rfl⟩
  rw [← EReal.coe_add, ← EReal.coe_mul, ← EReal.coe_mul, ← EReal.coe_mul, ← EReal.coe_add, add_mul]

theorem sum_mul_of_isReal {ι : Type*} (s : Finset ι) (f : ι → EReal) (c : EReal)
    (hf : ∀ i ∈ s, IsReal (f i)) (hc : IsReal c) : (∑ i ∈ s, f i) * c = ∑ i ∈ s, f i * c := by
  classical
  induction s using Finset.induction_on with
  | empty => simp
  | insert a s ha ih =>
    have hs := fun i hi => hf i (Finset.mem_insert_of_mem hi)
    rw [Finset.sum_insert ha, Finset.sum_insert ha,
      add_mul_of_isReal (hf a (Finset.mem_insert_self a s)) (isReal_sum s f hs) hc, ih hs]

section
variable (gsrc : Fin 1600000 → Fin 100000) (hit : Fin 100000 → Fin 1600000 → Prop) [∀ i, DecidablePred (hit i)]
  (hitB : Fin 128 → Fin 100000 → Prop) [∀ g, DecidablePred (hitB g)]

-- (A X)_i: the sum of the source rows of the edges landing on node i.
def agg {D : ℕ} (X : Fin 100000 → Fin D → EReal) (i : Fin 100000) (j : Fin D) : EReal :=
  ∑ e : Fin 1600000, if hit i e then X (gsrc e) j else 0

-- relu(((A X) Wrᵀ + b) + X Wsᵀ)
def layerR {Din Dout : ℕ} (X : Fin 100000 → Fin Din → EReal) (Wr Ws : Fin Dout → Fin Din → EReal) (b : Fin Dout → EReal)
    (i : Fin 100000) (j : Fin Dout) : EReal :=
  max (((∑ k : Fin Din, agg gsrc hit X i k * Wr j k) + b j) + ∑ k : Fin Din, X i k * Ws j k) 0

-- relu(((A X) Wrᵀ + X Wsᵀ) + b)
def layerK1 {Din Dout : ℕ} (X : Fin 100000 → Fin Din → EReal) (Wr Ws : Fin Dout → Fin Din → EReal) (b : Fin Dout → EReal)
    (i : Fin 100000) (j : Fin Dout) : EReal :=
  max (((∑ k : Fin Din, agg gsrc hit X i k * Wr j k) + ∑ k : Fin Din, X i k * Ws j k) + b j) 0

-- relu((A (H Wrᵀ) + H Wsᵀ) + b)
def layerKP {Din Dout : ℕ} (H : Fin 100000 → Fin Din → EReal) (Wr Ws : Fin Dout → Fin Din → EReal) (b : Fin Dout → EReal)
    (i : Fin 100000) (j : Fin Dout) : EReal :=
  max ((agg gsrc hit (fun i' j' => ∑ k : Fin Din, H i' k * Wr j' k) i j + ∑ k : Fin Din, H i k * Ws j k) + b j) 0

def poolSum {D : ℕ} (H : Fin 100000 → Fin D → EReal) (g : Fin 128) (j : Fin D) : EReal :=
  ∑ n : Fin 100000, if hitB g n then H n j else 0
def poolCount (g : Fin 128) : EReal := ∑ n : Fin 100000, if hitB g n then (1 : EReal) else 0
-- Each graph's column sums over its node count, at least one.
def pool {D : ℕ} (H : Fin 100000 → Fin D → EReal) (g : Fin 128) (j : Fin D) : EReal :=
  Ideal.div (poolSum hitB H g j) (max (poolCount hitB g) 1)

theorem isReal_agg {D : ℕ} (X : Fin 100000 → Fin D → EReal) (hX : ∀ i k, IsReal (X i k)) (i : Fin 100000) (j : Fin D) :
    IsReal (agg gsrc hit X i j) :=
  isReal_sum _ _ fun e _ => isReal_ite (hX (gsrc e) j)

theorem isReal_layerR {Din Dout : ℕ} (X : Fin 100000 → Fin Din → EReal) (Wr Ws : Fin Dout → Fin Din → EReal)
    (b : Fin Dout → EReal) (hX : ∀ i k, IsReal (X i k)) (hWr : ∀ j k, IsReal (Wr j k)) (hWs : ∀ j k, IsReal (Ws j k))
    (hb : ∀ j, IsReal (b j)) (i : Fin 100000) (j : Fin Dout) : IsReal (layerR gsrc hit X Wr Ws b i j) :=
  isReal_max_zero (isReal_add (isReal_add
    (isReal_sum _ _ fun k _ => isReal_mul (isReal_agg gsrc hit X hX i k) (hWr j k)) (hb j))
    (isReal_sum _ _ fun k _ => isReal_mul (hX i k) (hWs j k)))

-- The neighbourhood sum is linear on real arrays: A (H Wrᵀ) = (A H) Wrᵀ.
theorem agg_linear {Din Dout : ℕ} (H : Fin 100000 → Fin Din → EReal) (Wr : Fin Dout → Fin Din → EReal)
    (hH : ∀ i k, IsReal (H i k)) (hWr : ∀ j k, IsReal (Wr j k)) (i : Fin 100000) (j : Fin Dout) :
    agg gsrc hit (fun i' j' => ∑ k : Fin Din, H i' k * Wr j' k) i j = ∑ k : Fin Din, agg gsrc hit H i k * Wr j k := by
  unfold agg
  rw [Finset.sum_congr rfl fun k _ => sum_mul_of_isReal _ _ _ (fun e _ => isReal_ite (hH (gsrc e) k)) (hWr j k),
    Finset.sum_comm]
  refine Finset.sum_congr rfl fun e _ => ?_
  split
  · rfl
  · simp

theorem layerK1_eq_layerR {Din Dout : ℕ} (X : Fin 100000 → Fin Din → EReal) (Wr Ws : Fin Dout → Fin Din → EReal)
    (b : Fin Dout → EReal) : layerK1 gsrc hit X Wr Ws b = layerR gsrc hit X Wr Ws b := by
  funext i j
  unfold layerK1 layerR
  rw [add_right_comm]

theorem layerKP_eq_layerR {Din Dout : ℕ} (H : Fin 100000 → Fin Din → EReal) (Wr Ws : Fin Dout → Fin Din → EReal)
    (b : Fin Dout → EReal) (hH : ∀ i k, IsReal (H i k)) (hWr : ∀ j k, IsReal (Wr j k)) :
    layerKP gsrc hit H Wr Ws b = layerR gsrc hit H Wr Ws b := by
  funext i j
  unfold layerKP layerR
  rw [agg_linear gsrc hit H Wr hH hWr i j, add_right_comm]

variable (x : Fin 100000 → Fin 128 → EReal) (W1r W1s : Fin 128 → Fin 128 → EReal) (b1 : Fin 128 → EReal)
  (W2r W2s : Fin 64 → Fin 128 → EReal) (b2 : Fin 64 → EReal) (W3r W3s : Fin 64 → Fin 64 → EReal) (b3 : Fin 64 → EReal)

def outR : Fin 128 → Fin 64 → EReal :=
  pool hitB (layerR gsrc hit (layerR gsrc hit (layerR gsrc hit x W1r W1s b1) W2r W2s b2) W3r W3s b3)
def outK : Fin 128 → Fin 64 → EReal :=
  pool hitB (layerKP gsrc hit (layerKP gsrc hit (layerK1 gsrc hit x W1r W1s b1) W2r W2s b2) W3r W3s b3)

-- On real inputs every layer's output is real, so each later layer may project before or after summing.
theorem outK_eq_outR (hx : ∀ i k, IsReal (x i k)) (hW1r : ∀ j k, IsReal (W1r j k)) (hW1s : ∀ j k, IsReal (W1s j k))
    (hb1 : ∀ j, IsReal (b1 j)) (hW2r : ∀ j k, IsReal (W2r j k)) (hW2s : ∀ j k, IsReal (W2s j k)) (hb2 : ∀ j, IsReal (b2 j))
    (hW3r : ∀ j k, IsReal (W3r j k)) (hW3s : ∀ j k, IsReal (W3s j k)) (hb3 : ∀ j, IsReal (b3 j)) :
    outK gsrc hit hitB x W1r W1s b1 W2r W2s b2 W3r W3s b3 = outR gsrc hit hitB x W1r W1s b1 W2r W2s b2 W3r W3s b3 := by
  have r1 := isReal_layerR gsrc hit x W1r W1s b1 hx hW1r hW1s hb1
  unfold outK outR
  rw [layerK1_eq_layerR, layerKP_eq_layerR gsrc hit _ W2r W2s b2 r1 hW2r,
    layerKP_eq_layerR gsrc hit _ W3r W3s b3 (isReal_layerR gsrc hit _ W2r W2s b2 r1 hW2r hW2s hb2) hW3r]

end

end Cert.Spec

end
-- ==== Proof.GraphOps.lean ====
import proofs.«425611_j42314017800422_2_alg».proof.Proof.LibRowGather
import proofs.«425611_j42314017800422_2_alg».proof.Proof.LibScatterRows
import proofs.«425611_j42314017800422_2_alg».proof.Proof.Graph
import proofs.«425611_j42314017800422_2_alg».proof.Proof.Spec
import Idealize.ShloMosaic.Lib.Pipeline.Value

namespace Cert.GraphOps

open Idealize.ShloMosaic Idealize.ShloMosaic.ValueIdx

-- An update lands on `i` when, on every axis, its signed start plus its window coordinate is `i`'s coordinate.
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 : (d.start j idx a + (d.window j a : ℤ)).toNat = (i a).val :=
        congrArg Fin.val (congrFun (Option.some.inj h) a)
      have := hh a
      omega
    · exact absurd h (by simp)
  · intro h
    have hh : ∀ a, 0 ≤ d.start j idx a + (d.window j a : ℤ) ∧ d.start j idx a + (d.window j a : ℤ) < (s.size a : ℤ) :=
      fun a => by
        have := h a
        have := (i a).isLt
        omega
    rw [dif_pos hh]
    congr 1
    funext a
    apply Fin.ext
    show (d.start j idx a + (d.window j a : ℤ)).toNat = (i a).val
    have := h a
    omega

theorem siIdx_col {s u : Shape} {N : ℕ} (d : ScatterDims s ⟨2, ![N, 1]⟩ u) (hiv : d.indexVectorDim = 1)
    (j : u.Idx) (r : Fin N) (hj : ∀ a ∈ d.uScatter, (j a).val = r.val)
    (k : Fin d.scatterDimsToOperandDims.length) : d.siIdx j k = ix2 r (0 : Fin 1) := by
  funext b
  apply Fin.ext
  match b with
  | ⟨0, _⟩ =>
    unfold ScatterDims.siIdx
    rw [dif_neg (by rw [hiv]; exact Nat.zero_ne_one)]
    unfold ScatterDims.siCoord
    simp only [Fin.val_cast]
    exact hj _ (List.getElem_mem _)
  | ⟨1, h1⟩ =>
    have hlt : (d.siIdx j k ⟨1, h1⟩).val < 1 := (d.siIdx j k ⟨1, h1⟩).isLt
    show (d.siIdx j k ⟨1, h1⟩).val = 0
    omega

-- Entry (c, f) of the table: its own value plus the updates (r, f) of the rows r numbered c.
theorem scatter_rows_apply {N C D w : ℕ} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hiv : d.indexVectorDim = 1)
    (x : (⟨2, ![C, D]⟩ : Shape).Idx → EReal) (idx : IVec ⟨2, ![N, 1]⟩ w) (upd : (⟨2, ![N, D]⟩ : Shape).Idx → EReal)
    (c : Fin C) (f : Fin D) :
    Host.scatterAdd (F := Ideal) (φ := .f32) d x idx upd (ix2 c f)
      = x (ix2 c f) + ∑ r : Fin N, if (idx (ix2 r (0 : Fin 1))).toInt = (c.val : ℤ) then upd (ix2 r f) else 0 := by
  refine Cert.ClassStats.Scatter.scatter2_apply d x idx upd c f
    (fun r => (idx (ix2 r (0 : Fin 1))).toInt = (c.val : ℤ)) ?_
  intro r b
  have hsd0 : (0 : Fin 2) ∈ d.scatterDimsToOperandDims := by rw [hsd]; exact List.mem_singleton.mpr rfl
  have hsd1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have huS : ∀ a ∈ d.uScatter, ((ix2 r b) a).val = r.val := by
    intro a ha
    have hna : a ∉ d.updateWindowDims := by simpa [ScatterDims.uScatter, Shape.kept] using ha
    rw [huw] at hna
    refine RowGather.ix2_val_zero r b a ?_
    have h2 : a.val < 2 := a.isLt
    by_contra hne
    exact hna (List.mem_singleton.mpr (Fin.ext (by show a.val = 1; omega)))
  have huW : ∀ a ∈ d.updateWindowDims, a.val = 1 := by
    intro a ha; rw [huw] at ha; rw [List.mem_singleton.mp ha]; rfl
  have hs0 : d.start (ix2 r b) idx 0 = (idx (ix2 r (0 : Fin 1))).toInt := by
    unfold ScatterDims.start
    rw [dif_pos hsd0, siIdx_col d hiv _ r huS]
  have hs1 : d.start (ix2 r b) idx 1 = 0 := by
    unfold ScatterDims.start; rw [dif_neg hsd1]
  have hw0 : d.window (ix2 r b) 0 = 0 := by
    unfold ScatterDims.window; rw [dif_neg hk0]
  have hw1 : d.window (ix2 r b) 1 = b.val := by
    unfold ScatterDims.window; rw [dif_pos hk1]
    exact RowGather.ix2_val_one r b _ (huW _ (List.getElem_mem _))
  rw [resultIdx?_eq_some_iff, Fin.forall_fin_two]
  show d.start (ix2 r b) idx 0 + (d.window (ix2 r b) 0 : ℤ) = (c.val : ℤ)
    ∧ d.start (ix2 r b) idx 1 + (d.window (ix2 r b) 1 : ℤ) = (f.val : ℤ) ↔ _
  rw [hs0, hw0, hs1, hw1, Fin.ext_iff]
  omega

theorem scatter_vec_apply {N C w : ℕ} (d : ScatterDims ⟨1, ![C]⟩ ⟨2, ![N, 1]⟩ ⟨1, ![N]⟩)
    (huw : d.updateWindowDims = []) (hiw : d.insertedWindowDims = [0]) (hsd : d.scatterDimsToOperandDims = [0])
    (hiv : d.indexVectorDim = 1)
    (x : (⟨1, ![C]⟩ : Shape).Idx → EReal) (idx : IVec ⟨2, ![N, 1]⟩ w) (upd : (⟨1, ![N]⟩ : Shape).Idx → EReal)
    (c : Fin C) :
    Host.scatterAdd (F := Ideal) (φ := .f32) d x idx upd (ix1 c)
      = x (ix1 c) + ∑ r : Fin N, if (idx (ix2 r (0 : Fin 1))).toInt = (c.val : ℤ) then upd (ix1 r) else 0 := by
  refine Cert.ClassStats.Scatter.scatter1_apply d x idx upd c
    (fun r => (idx (ix2 r (0 : Fin 1))).toInt = (c.val : ℤ)) ?_
  intro r
  have hsd0 : (0 : Fin 1) ∈ d.scatterDimsToOperandDims := by rw [hsd]; exact List.mem_singleton.mpr rfl
  have hk0 : (0 : Fin 1) ∉ d.sKept := by simp [ScatterDims.sKept, Shape.kept, hiw]
  have huS : ∀ a ∈ d.uScatter, ((ix1 r) a).val = r.val := by
    intro a _
    match a with
    | ⟨0, _⟩ => rfl
  have hs0 : d.start (ix1 r) idx 0 = (idx (ix2 r (0 : Fin 1))).toInt := by
    unfold ScatterDims.start
    rw [dif_pos hsd0, siIdx_col d hiv _ r huS]
  have hw0 : d.window (ix1 r) 0 = 0 := by
    unfold ScatterDims.window; rw [dif_neg hk0]
  rw [resultIdx?_eq_some_iff, Fin.forall_fin_one]
  show d.start (ix1 r) idx 0 + (d.window (ix1 r) 0 : ℤ) = (c.val : ℤ) ↔ _
  rw [hs0, hw0]
  omega

open Cert.Graph Cert.Spec

theorem tr_read {a b : ℕ} (x : (⟨2, ![a, b]⟩ : Shape).Idx → EReal)
    (h : (⟨2, ![a, b]⟩ : Shape).Transposes [1, 0] ⟨2, ![b, a]⟩) (k : Fin b) (j : Fin a) :
    transpose ⟨2, ![b, a]⟩ [1, 0] x h (ix2 k j) = x (ix2 j k) :=
  transpose_apply [1, 0] x h (ix2 k j) (ix2 j k) fun d => by match d with | ⟨0, _⟩ => rfl | ⟨1, _⟩ => rfl

section
variable {hb : (⟨1, ![1600000]⟩ : Shape).BroadcastsInDim ⟨2, ![1600000, 1]⟩ (![0] : Fin 1 → Fin 2)}
  {hb0 : (⟨0, ![]⟩ : Shape).BroadcastsInDim ⟨1, ![1600000]⟩ (![] : Fin 0 → Fin 1)}

theorem col_read {α : Type} (R : (⟨1, ![1600000]⟩ : Shape).Idx → α) (e : Fin 1600000) :
    broadcastInDim ⟨2, ![1600000, 1]⟩ ![0] hb R (ix2 e (0 : Fin 1)) = R (ix1 e) :=
  broadcastInDim_apply _ _ R _ (ix1 e) fun a => by match a with | ⟨0, _⟩ => rfl

-- The gather column made of the edges' source words: a negative one wrapped once by the node count.
theorem srcCol_read (ei : EdgeArr) (R : (⟨1, ![1600000]⟩ : Shape).Idx → BitVec 32) (hR : ∀ e, R (ix1 e) = srcWord ei e)
    (e : Fin 1600000) :
    broadcastInDim ⟨2, ![1600000, 1]⟩ ![0] hb
      (select (cmpi .slt R (broadcastInDim ⟨1, ![1600000]⟩ ![] hb0 (constantI ⟨0, ![]⟩ 32 0#32)))
        (addi R (broadcastInDim ⟨1, ![1600000]⟩ ![] hb0 (constantI ⟨0, ![]⟩ 32 100000#32))) R)
      (ix2 e (0 : Fin 1)) = srcWrap ei e := by
  rw [col_read]
  show Scalar.select (IntOp.cmpi .slt (R (ix1 e)) 0#32) (IntOp.addi (R (ix1 e)) 100000#32) (R (ix1 e)) = _
  rw [hR]
  rfl

-- Source rows gathered by the wrapped source words and added from zero onto the destination rows: the neighbourhood sum.
theorem agg_rows {D : ℕ} (ei : EdgeArr) (dg : GatherDims ⟨2, ![100000, D]⟩ ⟨2, ![1600000, 1]⟩ ⟨2, ![1600000, D]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![100000, D]⟩ ⟨2, ![1600000, 1]⟩ ⟨2, ![1600000, D]⟩)
    (huw : ds.updateWindowDims = [1]) (hiw : ds.insertedWindowDims = [0]) (hsd : ds.scatterDimsToOperandDims = [0])
    (hiv : ds.indexVectorDim = 1)
    (X Z : (⟨2, ![100000, D]⟩ : Shape).Idx → EReal) (hZ : ∀ i, Z i = 0) (Rs Rd : (⟨1, ![1600000]⟩ : Shape).Idx → BitVec 32)
    (hRs : ∀ e, Rs (ix1 e) = srcWord ei e) (hRd : ∀ e, Rd (ix1 e) = dstWord ei e)
    (Xc : Fin 100000 → Fin D → EReal) (hX : ∀ i k, X (ix2 i k) = Xc i k) (i : Fin 100000) (k : Fin D) :
    Host.scatterAdd (F := Ideal) (φ := .f32) ds Z (broadcastInDim ⟨2, ![1600000, 1]⟩ ![0] hb Rd)
        (Host.gather dg X (broadcastInDim ⟨2, ![1600000, 1]⟩ ![0] hb
          (select (cmpi .slt Rs (broadcastInDim ⟨1, ![1600000]⟩ ![] hb0 (constantI ⟨0, ![]⟩ 32 0#32)))
            (addi Rs (broadcastInDim ⟨1, ![1600000]⟩ ![] hb0 (constantI ⟨0, ![]⟩ 32 100000#32))) Rs))) (ix2 i k)
      = agg (gsrc ei) (hit ei) Xc i k := by
  rw [scatter_rows_apply ds huw hiw hsd hiv, hZ, zero_add]
  unfold agg
  refine Finset.sum_congr rfl fun e _ => ?_
  rw [col_read, hRd, RowGather.gather_rows_apply dg hoff hcoll hob hsim hivd X _ e k (by decide), srcCol_read ei Rs hRs, hX]
  rfl

end

end Cert.GraphOps
-- ==== Proof.KHost.lean ====
import proofs.«425611_j42314017800422_2_alg».proof.Proof.KFold
import proofs.«425611_j42314017800422_2_alg».proof.Proof.KVal0
import proofs.«425611_j42314017800422_2_alg».proof.Proof.KVal1
import proofs.«425611_j42314017800422_2_alg».proof.Proof.KVal2
import proofs.«425611_j42314017800422_2_alg».proof.Proof.Graph
import proofs.«425611_j42314017800422_2_alg».proof.Proof.GraphOps
import proofs.«425611_j42314017800422_2_alg».proof.Proof.Spec
import Idealize.ShloMosaic.Lib.StableHlo.Run
import Idealize.ShloMosaic.Lib.KernelVsHost

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Graph Cert.Spec Cert.GraphOps

variable (m : (ℓ : Loc nD τ sig) → Buf (Elt Ideal) ℓ) (ρ : Dev nD → PrngReg) (c : Dev nD)

abbrev aX : S100000x128.Idx → EReal := m ((c : Thread nD τ).loc main_arg0)
abbrev aE : S2x1600000.Idx → BitVec 32 := m ((c : Thread nD τ).loc main_arg1)
abbrev aG : S100000.Idx → BitVec 32 := m ((c : Thread nD τ).loc main_arg2)
abbrev aW1r : S128x128.Idx → EReal := m ((c : Thread nD τ).loc main_arg3)
abbrev aW1s : S128x128.Idx → EReal := m ((c : Thread nD τ).loc main_arg4)
abbrev ab1 : S128.Idx → EReal := m ((c : Thread nD τ).loc main_arg5)
abbrev aW2r : S64x128.Idx → EReal := m ((c : Thread nD τ).loc main_arg6)
abbrev aW2s : S64x128.Idx → EReal := m ((c : Thread nD τ).loc main_arg7)
abbrev ab2 : S64.Idx → EReal := m ((c : Thread nD τ).loc main_arg8)
abbrev aW3r : S64x64.Idx → EReal := m ((c : Thread nD τ).loc main_arg9)
abbrev aW3s : S64x64.Idx → EReal := m ((c : Thread nD τ).loc main_arg10)
abbrev ab3 : S64.Idx → EReal := m ((c : Thread nD τ).loc main_arg11)

theorem h_row (r : ℕ) (hr : r < 2) (hs : S2x1600000.Slices ![r, 0] S1x1600000) (x1 : S2x1600000.Idx → BitVec 32)
    (e : Fin 1600000) :
    shapeCast S1600000 (extractStridedSlice S1x1600000 ![r, 0] x1 hs) shapeCasts_S1x1600000_S1600000 (ix1 e)
      = x1 (ix2 (⟨r, hr⟩ : Fin 2) e) := by
  refine (shapeCast_apply _ _ (ix1 e) (ix2 (0 : Fin 1) e) ?_).trans
    (extractStridedSlice_apply _ x1 _ _ _ fun a => ?_)
  · rw [Shape.rowMajor_val_two, Shape.rowMajor_val_one]
    show 0 * 1600000 + e.val = e.val
    omega
  · match a with
    | ⟨0, _⟩ => rfl
    | ⟨1, _⟩ => show e.val = 0 + e.val; omega

theorem h_pad2 {α : Type} (x : S100000x64.Idx → α) (v : S_.Idx → α) (n : Fin 100096) (h : n.val < 100000) (j : Fin 64) :
    pad S100096x64 ![0, 0] ![96, 0] ![0, 0] x v pads_S100000x64_S100096x64_0960_000 h_S_ (ix2 n j)
      = x (ix2 ⟨n.val, h⟩ j) :=
  pad_apply_of_inside _ _ _ x v _ _ (ix2 n j) (ix2 ⟨n.val, h⟩ j) fun a => by
    match a with
    | ⟨0, _⟩ => show n.val = 0 + n.val * (0 + 1); omega
    | ⟨1, _⟩ => show j.val = 0 + j.val * (0 + 1); omega

theorem h_pad1 {α : Type} (x : S100000.Idx → α) (v : S_.Idx → α) (n : Fin 100096) :
    pad S100096 ![0] ![96] ![0] x v pads_S100000_S100096_0960 h_S_ (ix1 n)
      = if h : n.val < 100000 then x (ix1 ⟨n.val, h⟩) else v (Shape.Idx.first h_S_) := by
  by_cases h : n.val < 100000
  · rw [dif_pos h]
    refine pad_apply_of_inside _ _ _ x v _ _ (ix1 n) (ix1 ⟨n.val, h⟩) fun a => ?_
    match a with
    | ⟨0, _⟩ => show n.val = 0 + n.val * (0 + 1); omega
  · rw [dif_neg h]
    refine pad_apply_of_not_inside _ _ _ x v _ _ (ix1 n) (0 : Fin 1) ?_
    show ¬(0 ≤ n.val ∧ (n.val - 0) % (0 + 1) = 0 ∧ (n.val - 0) / (0 + 1) < 100000)
    omega

theorem h_keep0 (r : Ref sig .tc) (h : r ∉ hostOps0_W) :
    W1 m ρ c (Proc.devRef .tc r) = m ((c : Thread nD τ).loc r) :=
  (StableHlo.after_of_writes_sub hostOps0 _ hostOps0_writes h).trans rfl

theorem h_keep3 (r : Ref sig .tc) (h1 : r ∉ hostOps1_W) :
    W3 m ρ c (Proc.devRef .tc r) = W2 m ρ c (Proc.devRef .tc r) :=
  StableHlo.after_of_writes_sub hostOps1 _ hostOps1_writes h1

theorem h_keep14 (r : Ref sig .tc) (h1 : r ∉ hostOps1_W)
    (a0 : ∀ w, Pipeline.arrRef spec0 w ≠ r) (a1 : ∀ w, Pipeline.arrRef spec1 w ≠ r) :
    W4 m ρ c (Proc.devRef .tc r) = W1 m ρ c (Proc.devRef .tc r) :=
  (W4_of_ne m ρ c r a1).trans ((h_keep3 m ρ c r h1).trans (W2_of_ne m ρ c r a0))

theorem h_keep2 (r : Ref sig .tc) (h0 : r ∉ hostOps0_W)
    (a0 : ∀ w, Pipeline.arrRef spec0 w ≠ r) :
    W2 m ρ c (Proc.devRef .tc r) = m ((c : Thread nD τ).loc r) :=
  (W2_of_ne m ρ c r a0).trans (h_keep0 m ρ c r h0)

theorem h_keep4 (r : Ref sig .tc) (h0 : r ∉ hostOps0_W) (h1 : r ∉ hostOps1_W)
    (a0 : ∀ w, Pipeline.arrRef spec0 w ≠ r) (a1 : ∀ w, Pipeline.arrRef spec1 w ≠ r) :
    W4 m ρ c (Proc.devRef .tc r) = m ((c : Thread nD τ).loc r) :=
  (h_keep14 m ρ c r h1 a0 a1).trans (h_keep0 m ρ c r h0)

/-- The two rows of the edge list, in any contents that kept what the first stretch made of them. -/
theorem h_rows (V : Valuation τ sig (Elt Ideal))
    (h1 : V (Proc.devRef .tc main_v1) = W1 m ρ c (Proc.devRef .tc main_v1))
    (h3 : V (Proc.devRef .tc main_v3) = W1 m ρ c (Proc.devRef .tc main_v3)) :
    (∀ e, (V (Proc.devRef .tc main_v1) : S1600000.Idx → BitVec 32) (ix1 e) = srcWord (aE m c) e)
      ∧ ∀ e, (V (Proc.devRef .tc main_v3) : S1600000.Idx → BitVec 32) (ix1 e) = dstWord (aE m c) e := by
  rw [h1, h3]
  unfold W1
  constructor <;> intro e <;> after_results_simp
  · exact h_row 0 (by decide) _ (aE m c) e
  · exact h_row 1 (by decide) _ (aE m c) e

theorem host0_agg (i : Fin 100000) (k : Fin 128) :
    inA0 (VW1 m ρ) c (ix2 i k) = agg (gsrc (aE m c)) (hit (aE m c)) (fun i' k' => aX m c (ix2 i' k')) i k := by
  unfold inA0 VW1 W1
  after_results_simp
  exact agg_rows (aE m c) _ rfl rfl rfl rfl rfl _ rfl rfl rfl rfl (aX m c) _ (fun _ => Ideal.ofBits_zero_f32) _ _
    (h_row 0 (by decide) _ (aE m c)) (h_row 1 (by decide) _ (aE m c)) _ (fun _ _ => rfl) i k

theorem host0_x : inX0 (VW1 m ρ) c = aX m c :=
  h_keep0 m ρ c main_arg0 (by decide)
theorem host0_wr (k j : Fin 128) : inWr0 (VW1 m ρ) c (ix2 k j) = aW1r m c (ix2 j k) := by
  unfold inWr0 VW1 W1
  after_results_simp
  exact tr_read _ _ k j
theorem host0_ws (k j : Fin 128) : inWs0 (VW1 m ρ) c (ix2 k j) = aW1s m c (ix2 j k) := by
  unfold inWs0 VW1 W1
  after_results_simp
  exact tr_read _ _ k j
theorem host0_b : inB0 (VW1 m ρ) c = ab1 m c :=
  h_keep0 m ρ c main_arg5 (by decide)
theorem host0_p (k : Fin 128) (j : Fin 64) : inP0 (VW1 m ρ) c (ix2 k j) = aW2r m c (ix2 j k) := by
  unfold inP0 VW1 W1
  after_results_simp
  exact tr_read _ _ k j

theorem host1_agg (i : Fin 100000) (j : Fin 64) :
    inA1 (VW3 m ρ) c (ix2 i j)
      = agg (gsrc (aE m c)) (hit (aE m c)) (fun i' k' => outZ0 (VW1 m ρ) c (ix2 i' k')) i j := by
  unfold inA1 VW3 W3
  after_results_simp
  obtain ⟨hs, hd⟩ := h_rows m ρ c (W2 m ρ c) (W2_of_ne m ρ c main_v1 (by decide)) (W2_of_ne m ρ c main_v3 (by decide))
  exact agg_rows (aE m c) _ rfl rfl rfl rfl rfl _ rfl rfl rfl rfl _ _ (fun _ => Ideal.ofBits_zero_f32) _ _ hs hd _
    (fun i' k' => congrFun (W2_arr m ρ c 7) (ix2 i' k')) i j
theorem host1_h : inH1 (VW3 m ρ) c = outH0 (VW1 m ρ) c :=
  (h_keep3 m ρ c main_v19_0 (by decide)).trans (W2_arr m ρ c 6)
theorem host1_ws (k : Fin 128) (j : Fin 64) : inWs1 (VW3 m ρ) c (ix2 k j) = aW2s m c (ix2 j k) := by
  unfold inWs1 VW3 W3
  after_results_simp
  exact (tr_read _ _ k j).trans (congrFun (h_keep2 m ρ c main_arg7 (by decide) (by decide)) _)
theorem host1_b : inB1 (VW3 m ρ) c = ab2 m c :=
  (h_keep3 m ρ c main_arg8 (by decide)).trans (h_keep2 m ρ c main_arg8 (by decide) (by decide))
theorem host1_p (k j : Fin 64) : inP1 (VW3 m ρ) c (ix2 k j) = aW3r m c (ix2 j k) := by
  unfold inP1 VW3 W3
  after_results_simp
  exact (tr_read _ _ k j).trans (congrFun (h_keep2 m ρ c main_arg9 (by decide) (by decide)) _)

theorem h_v44_W5 (i : Fin 100000) (j : Fin 64) :
    (W5 m ρ c (Proc.devRef .tc main_v44) : S100000x64.Idx → EReal) (ix2 i j)
      = agg (gsrc (aE m c)) (hit (aE m c)) (fun i' k' => outZ1 (VW3 m ρ) c (ix2 i' k')) i j := by
  unfold W5
  after_results_simp
  obtain ⟨hs, hd⟩ := h_rows m ρ c (W4 m ρ c) (h_keep14 m ρ c main_v1 (by decide) (by decide) (by decide))
    (h_keep14 m ρ c main_v3 (by decide) (by decide) (by decide))
  exact agg_rows (aE m c) _ rfl rfl rfl rfl rfl _ rfl rfl rfl rfl _ _ (fun _ => Ideal.ofBits_zero_f32) _ _ hs hd _
    (fun i' k' => congrFun (W4_arr m ρ c 6) (ix2 i' k')) i j

theorem host2_agg (n : Fin 100096) (h : n.val < 100000) (j : Fin 64) :
    inA2 (VW11 m ρ) c (ix2 n j)
      = agg (gsrc (aE m c)) (hit (aE m c)) (fun i' k' => outZ1 (VW3 m ρ) c (ix2 i' k')) ⟨n.val, h⟩ j := by
  unfold inA2 VW11 W11 W10 W9 W8 W7 W6
  generalize hV : W5 m ρ c = V5
  after_results_simp
  subst hV
  exact (h_pad2 _ _ n h j).trans (h_v44_W5 m ρ c ⟨n.val, h⟩ j)
theorem host2_h (n : Fin 100096) (h : n.val < 100000) (k : Fin 64) :
    inH2 (VW11 m ρ) c (ix2 n k) = outH1 (VW3 m ρ) c (ix2 ⟨n.val, h⟩ k) := by
  unfold inH2 VW11
  after_results_simp
  exact (h_pad2 _ _ n h k).trans (congrFun (W4_arr m ρ c 5) _)
/-- The node-to-graph words, padded with −1. -/
theorem host2_g (n : Fin 100096) :
    inG2 (VW11 m ρ) c (ix2 (0 : Fin 1) n) = if h : n.val < 100000 then aG m c (ix1 ⟨n.val, h⟩) else 4294967295#32 := by
  unfold inG2 VW11
  after_results_simp
  refine (shapeCast_apply _ _ (ix2 (0 : Fin 1) n) (ix1 n) ?_).trans ((h_pad1 _ _ n).trans ?_)
  · rw [Shape.rowMajor_val_two, Shape.rowMajor_val_one]
    show n.val = 0 * 100096 + n.val
    omega
  · rw [h_keep4 m ρ c main_arg2 (by decide) (by decide) (by decide) (by decide)]
    rfl
theorem host2_ws (k j : Fin 64) : inWs2 (VW11 m ρ) c (ix2 k j) = aW3s m c (ix2 j k) := by
  unfold inWs2 VW11
  after_results_simp
  exact (tr_read _ _ k j).trans (congrFun (h_keep4 m ρ c main_arg10 (by decide) (by decide) (by decide) (by decide)) _)
theorem host2_b : inB2 (VW11 m ρ) c = ab3 m c := by
  unfold inB2 VW11
  after_results_simp
  exact h_keep4 m ρ c main_arg11 (by decide) (by decide) (by decide) (by decide)

end Cert.KernelIdeal.Reg

end
-- ==== Proof.KValue.lean ====
import proofs.«425611_j42314017800422_2_alg».proof.Proof.KHost

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Cert.Spec Cert.Graph

variable (m : (ℓ : Loc nD τ sig) → Buf (Elt Ideal) ℓ) (ρ : Dev nD → PrngReg) (c : Dev nD)

abbrev cX : Fin 100000 → Fin 128 → EReal := fun i k => aX m c (ix2 i k)
abbrev cW1r : Fin 128 → Fin 128 → EReal := fun a k => aW1r m c (ix2 a k)
abbrev cW1s : Fin 128 → Fin 128 → EReal := fun a k => aW1s m c (ix2 a k)
abbrev cb1 : Fin 128 → EReal := fun a => ab1 m c (ix1 a)
abbrev cW2r : Fin 64 → Fin 128 → EReal := fun a k => aW2r m c (ix2 a k)
abbrev cW2s : Fin 64 → Fin 128 → EReal := fun a k => aW2s m c (ix2 a k)
abbrev cb2 : Fin 64 → EReal := fun a => ab2 m c (ix1 a)
abbrev cW3r : Fin 64 → Fin 64 → EReal := fun a k => aW3r m c (ix2 a k)
abbrev cW3s : Fin 64 → Fin 64 → EReal := fun a k => aW3s m c (ix2 a k)
abbrev cb3 : Fin 64 → EReal := fun a => ab3 m c (ix1 a)
abbrev kH1 : Fin 100000 → Fin 128 → EReal :=
  layerK1 (gsrc (aE m c)) (hit (aE m c)) (cX m c) (cW1r m c) (cW1s m c) (cb1 m c)
abbrev kH2 : Fin 100000 → Fin 64 → EReal :=
  layerKP (gsrc (aE m c)) (hit (aE m c)) (kH1 m c) (cW2r m c) (cW2s m c) (cb2 m c)
abbrev kH3 : Fin 100000 → Fin 64 → EReal :=
  layerKP (gsrc (aE m c)) (hit (aE m c)) (kH2 m c) (cW3r m c) (cW3s m c) (cb3 m c)

/-- An array read at coordinate pairs is a function of its index's two coordinates. -/
theorem fn2 {a b : ℕ} {α : Type} {f : (⟨2, ![a, b]⟩ : Shape).Idx → α} {g : Fin a → Fin b → α}
    (h : ∀ i j, f (ix2 i j) = g i j) : f = fun q => g (q 0) (q 1) :=
  funext fun q => (congrArg f (eq_ix2 q)).trans (h _ _)

theorem outH0_eq (i : Fin 100000) (j : Fin 128) : outH0 (VW1 m ρ) c (ix2 i j) = kH1 m c i j := by
  rw [arr0_6_apply, fn2 (host0_agg m ρ c), host0_x, fn2 (host0_wr m ρ c), fn2 (host0_ws m ρ c), host0_b]
  rfl

theorem outZ0_eq (i : Fin 100000) (j : Fin 64) :
    outZ0 (VW1 m ρ) c (ix2 i j) = ∑ k : Fin 128, kH1 m c i k * cW2r m c j k := by
  rw [arr0_7_apply, fn2 (outH0_eq m ρ c), fn2 (host0_p m ρ c)]

theorem outH1_eq (i : Fin 100000) (j : Fin 64) : outH1 (VW3 m ρ) c (ix2 i j) = kH2 m c i j := by
  rw [arr1_5_apply, host1_agg, fn2 (outZ0_eq m ρ c), host1_h, fn2 (outH0_eq m ρ c), fn2 (host1_ws m ρ c), host1_b]
  rfl

theorem outZ1_eq (i : Fin 100000) (j : Fin 64) :
    outZ1 (VW3 m ρ) c (ix2 i j) = ∑ k : Fin 64, kH2 m c i k * cW3r m c j k := by
  rw [arr1_6_apply, fn2 (outH1_eq m ρ c), fn2 (host1_p m ρ c)]

theorem h3p_real (n : Fin 100096) (h : n.val < 100000) (j : Fin 64) :
    h3p (VW11 m ρ) c n j = kH3 m c ⟨n.val, h⟩ j := by
  unfold h3p
  rw [host2_agg m ρ c n h, fn2 (outZ1_eq m ρ c), fn2 (host2_ws m ρ c), host2_b]
  refine congrArg (fun s => max ((_ + s) + _) 0) (Finset.sum_congr rfl fun k _ => ?_)
  rw [host2_h m ρ c n h, outH1_eq]

/-- A graph's number, as a word, is a batch word exactly when the batch word read signed is the number. -/
theorem word_eq_iff (g : Fin 128) (w : BitVec 32) : BitVec.ofNat 32 g.val = w ↔ w.toInt = (g.val : ℤ) := by
  have hg : g.val < 128 := g.isLt
  have h1 : (BitVec.ofNat 32 g.val).toInt = (g.val : ℤ) := by
    rw [BitVec.toInt_eq_toNat_cond, BitVec.toNat_ofNat, Nat.mod_eq_of_lt (by omega)]
    split <;> omega
  exact ⟨fun h => h ▸ h1, fun h => BitVec.eq_of_toInt_eq (h1.trans h.symm)⟩

theorem mask2_real (g : Fin 128) (n : Fin 100096) (h : n.val < 100000) :
    mask2 (VW11 m ρ) c g n = if hitB (aG m c) g ⟨n.val, h⟩ then 1 else 0 := by
  unfold mask2 hitB
  rw [host2_g, dif_pos h]
  exact if_congr (word_eq_iff g _) rfl rfl

/-- A padding row's batch word is −1, which is no graph's number. -/
theorem mask2_pad (g : Fin 128) (n : Fin 100096) (h : ¬ n.val < 100000) :
    mask2 (VW11 m ρ) c g n = 0 := by
  unfold mask2
  rw [host2_g, dif_neg h]
  refine if_neg fun e => ?_
  have h1 := (word_eq_iff g _).mp e
  rw [show (4294967295#32 : BitVec 32).toInt = -1 by decide] at h1
  omega

/-- A sum over the padded rows of a term that vanishes on the padding is the sum over the real rows. -/
theorem sum_padded (f : Fin 100096 → EReal) (f' : Fin 100000 → EReal)
    (hreal : ∀ (n : Fin 100096) (h : n.val < 100000), f n = f' ⟨n.val, h⟩) (hpad : ∀ n : Fin 100096, ¬ n.val < 100000 → f n = 0) :
    ∑ n : Fin 100096, f n = ∑ n : Fin 100000, f' n :=
  (Fin.sum_univ_add (a := 100000) (b := 96) f).trans <|
    (congrArg₂ (· + ·) (Finset.sum_congr rfl fun n _ => hreal _ n.isLt)
      (Finset.sum_eq_zero fun n _ => hpad _ (Nat.not_lt.mpr (Nat.le_add_right _ _)))).trans (add_zero _)

/-- The kernel's result is the specification's kernel-side function of the arguments read by coordinates. -/
theorem kernel_eq (g : Fin 128) (j : Fin 64) :
    out2 (VW11 m ρ) c (ix2 g j)
      = outK (gsrc (aE m c)) (hit (aE m c)) (hitB (aG m c)) (cX m c) (cW1r m c) (cW1s m c) (cb1 m c)
          (cW2r m c) (cW2s m c) (cb2 m c) (cW3r m c) (cW3s m c) (cb3 m c) g j := by
  have hs : ∑ n : Fin 100096, mask2 (VW11 m ρ) c g n * h3p (VW11 m ρ) c n j = poolSum (hitB (aG m c)) (kH3 m c) g j :=
    sum_padded _ _ (fun n h => by rw [mask2_real m ρ c g n h, h3p_real m ρ c n h j, ite_mul, one_mul, zero_mul])
      fun n h => by rw [mask2_pad m ρ c g n h, zero_mul]
  have hc : ∑ n : Fin 100096, mask2 (VW11 m ρ) c g n = poolCount (hitB (aG m c)) g :=
    sum_padded _ _ (mask2_real m ρ c g) (mask2_pad m ρ c g)
  rw [arr2_5_apply, hs, hc]
  rfl

end Cert.KernelIdeal.Reg

end
-- ==== Proof.RefValue.lean ====
import proofs.«425611_j42314017800422_2_alg».proof.Proof.Gen.ReferenceIdeal.Run
import proofs.«425611_j42314017800422_2_alg».proof.Proof.Gen.ReferenceIdeal.Read
import proofs.«425611_j42314017800422_2_alg».proof.Proof.Graph
import proofs.«425611_j42314017800422_2_alg».proof.Proof.GraphOps
import proofs.«425611_j42314017800422_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open Cert.Graph Cert.Spec Cert.GraphOps

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 x4 : (⟨S128x128, .f32⟩ : BufTy).Contents (Elt Ideal))
  (x5 : (⟨S128, .f32⟩ : BufTy).Contents (Elt Ideal)) (x6 x7 : (⟨S64x128, .f32⟩ : BufTy).Contents (Elt Ideal))
  (x8 : (⟨S64, .f32⟩ : BufTy).Contents (Elt Ideal)) (x9 x10 : (⟨S64x64, .f32⟩ : BufTy).Contents (Elt Ideal))
  (x11 : (⟨S64, .f32⟩ : BufTy).Contents (Elt Ideal))

theorem ix2_ext {a b : ℕ} {f g : (⟨2, ![a, b]⟩ : Shape).Idx} (h0 : (f 0).val = (g 0).val) (h1 : (f 1).val = (g 1).val) :
    f = g :=
  funext fun d => Fin.ext (by match d with | ⟨0, _⟩ => exact h0 | ⟨1, _⟩ => exact h1)

theorem row0_read (e : Fin 1600000) : val_main_v1 (F := Ideal) x1 (ix1 e) = srcWord x1 e :=
  (val_main_v1_apply x1 _).trans ((val_main_v0_apply x1 _).trans (congrArg x1 (ix2_ext rfl (Nat.mod_eq_of_lt e.isLt))))

theorem row1_read (e : Fin 1600000) : val_main_v3 (F := Ideal) x1 (ix1 e) = dstWord x1 e :=
  (val_main_v3_apply x1 _).trans ((val_main_v2_apply x1 _).trans (congrArg x1 (ix2_ext rfl (Nat.mod_eq_of_lt e.isLt))))

/-- A layer's entry, its two products read at the indices the program names: the specification's layer. -/
theorem layer_form {D E : ℕ} (A X : (⟨2, ![100000, D]⟩ : Shape).Idx → EReal) (Wr Ws : (⟨2, ![E, D]⟩ : Shape).Idx → EReal)
    (tr : (⟨2, ![E, D]⟩ : Shape).Transposes [1, 0] ⟨2, ![D, E]⟩) (b : (⟨1, ![E]⟩ : Shape).Idx → EReal)
    (i : Fin 100000) (j : Fin E) (la lx : Fin D → (⟨2, ![100000, D]⟩ : Shape).Idx)
    (ra rs : Fin D → (⟨2, ![D, E]⟩ : Shape).Idx) (ib : (⟨1, ![E]⟩ : Shape).Idx)
    (hA : ∀ i k, A (ix2 i k) = agg (gsrc x1) (hit x1) (fun i k => X (ix2 i k)) i k)
    (hla : ∀ k, la k = ix2 i k := by exact fun _ => eq_ix2 _) (hlx : ∀ k, lx k = ix2 i k := by exact fun _ => eq_ix2 _)
    (hra : ∀ k, ra k = ix2 k j := by exact fun _ => eq_ix2 _) (hrs : ∀ k, rs k = ix2 k j := by exact fun _ => eq_ix2 _)
    (hib : ib = ix1 j := by exact eq_ix1 _) :
    FloatOps.maximumf (F := Ideal) (φ := .f32) (FloatOps.addf (FloatOps.addf (∑ k, A (la k) * transpose ⟨2, ![D, E]⟩ [1, 0] Wr tr (ra k)) (b ib))
        (∑ k, X (lx k) * transpose ⟨2, ![D, E]⟩ [1, 0] Ws tr (rs k))) (FloatOps.ofBits .f32 0x00000000#32)
      = layerR (gsrc x1) (hit x1) (fun i k => X (ix2 i k)) (fun a k => Wr (ix2 a k)) (fun a k => Ws (ix2 a k))
          (fun a => b (ix1 a)) i j := by
  rw [Ideal.maximumf_def, Ideal.addf_def, Ideal.addf_def, Ideal.ofBits_def, Ideal.ofBits_zero_f32]
  unfold layerR
  simp only [hla, hlx, hra, hrs, hib, hA, tr_read Wr tr, tr_read Ws tr]

theorem layer1_read : (fun i j => val_main_v22 (F := Ideal) x0 x1 x3 x4 x5 (ix2 i j))
    = layerR (gsrc x1) (hit x1) (fun i k => x0 (ix2 i k)) (fun a k => x3 (ix2 a k)) (fun a k => x4 (ix2 a k)) (fun a => x5 (ix1 a)) := by
  funext i j
  rw [val_main_v22_apply, val_main_call0_v0_apply, val_main_call0_cst_apply, val_main_v21_apply, val_main_v18_apply,
    val_main_v15_apply, val_main_v17_apply, val_main_v16_apply, val_main_v20_apply]
  exact layer_form x1 _ x0 x3 x4 _ x5 i j _ _ _ _ _
    (agg_rows x1 _ rfl rfl rfl rfl rfl _ rfl rfl rfl rfl x0 _ (fun _ => Ideal.ofBits_zero_f32) _ _ (row0_read x1) (row1_read x1) _ fun _ _ => rfl)

theorem layer2_read : (fun i j => val_main_v41 (F := Ideal) x0 x1 x3 x4 x5 x6 x7 x8 (ix2 i j))
    = layerR (gsrc x1) (hit x1) (fun i k => val_main_v22 (F := Ideal) x0 x1 x3 x4 x5 (ix2 i k))
        (fun a k => x6 (ix2 a k)) (fun a k => x7 (ix2 a k)) (fun a => x8 (ix1 a)) := by
  funext i j
  rw [val_main_v41_apply, val_main_call1_v0_apply, val_main_call1_cst_apply, val_main_v40_apply, val_main_v37_apply,
    val_main_v34_apply, val_main_v36_apply, val_main_v35_apply, val_main_v39_apply]
  exact layer_form x1 _ (val_main_v22 (F := Ideal) x0 x1 x3 x4 x5) x6 x7 _ x8 i j _ _ _ _ _
    (agg_rows x1 _ rfl rfl rfl rfl rfl _ rfl rfl rfl rfl _ _ (fun _ => Ideal.ofBits_zero_f32) _ _ (row0_read x1) (row1_read x1) _ fun _ _ => rfl)

theorem layer3_read : (fun i j => val_main_v60 (F := Ideal) x0 x1 x3 x4 x5 x6 x7 x8 x9 x10 x11 (ix2 i j))
    = layerR (gsrc x1) (hit x1) (fun i k => val_main_v41 (F := Ideal) x0 x1 x3 x4 x5 x6 x7 x8 (ix2 i k))
        (fun a k => x9 (ix2 a k)) (fun a k => x10 (ix2 a k)) (fun a => x11 (ix1 a)) := by
  funext i j
  rw [val_main_v60_apply, val_main_call2_v0_apply, val_main_call2_cst_apply, val_main_v59_apply, val_main_v56_apply,
    val_main_v53_apply, val_main_v55_apply, val_main_v54_apply, val_main_v58_apply]
  exact layer_form x1 _ (val_main_v41 (F := Ideal) x0 x1 x3 x4 x5 x6 x7 x8) x9 x10 _ x11 i j _ _ _ _ _
    (agg_rows x1 _ rfl rfl rfl rfl rfl _ rfl rfl rfl rfl _ _ (fun _ => Ideal.ofBits_zero_f32) _ _ (row0_read x1) (row1_read x1) _ fun _ _ => rfl)

theorem bat_col (n : Fin 100000) : val_main_v62 (F := Ideal) x2 (ix2 n (0 : Fin 1)) = x2 (ix1 n) :=
  (val_main_v62_apply x2 _).trans (congrArg x2 (eq_ix1 _))

theorem poolSum_read (g : Fin 128) (j : Fin 64) :
    val_main_v63 (F := Ideal) x0 x1 x2 x3 x4 x5 x6 x7 x8 x9 x10 x11 (ix2 g j)
      = poolSum (hitB x2) (fun n k => val_main_v60 (F := Ideal) x0 x1 x3 x4 x5 x6 x7 x8 x9 x10 x11 (ix2 n k)) g j := by
  unfold val_main_v63 poolSum
  rw [scatter_rows_apply _ rfl rfl rfl rfl, show val_main_v61 (F := Ideal) (ix2 g j) = 0 from Ideal.ofBits_zero_f32, zero_add]
  exact Finset.sum_congr rfl fun n _ => by rw [bat_col]; rfl

theorem poolCount_read (g : Fin 128) : val_main_v67 (F := Ideal) x2 (ix1 g) = poolCount (hitB x2) g := by
  unfold val_main_v67 poolCount
  rw [scatter_vec_apply _ rfl rfl rfl rfl, show val_main_v65 (F := Ideal) (ix1 g) = 0 from Ideal.ofBits_zero_f32, zero_add]
  exact Finset.sum_congr rfl fun n _ => by
    rw [show val_main_v66 (F := Ideal) x2 = val_main_v62 (F := Ideal) x2 from rfl, bat_col,
      show val_main_v64 (F := Ideal) (ix1 n) = 1 from Ideal.ofBits_one_f32]
    rfl

/-- The reference's result is the specification's reference-side function of the arguments read by coordinates. -/
theorem ref_eq (g : Fin 128) (j : Fin 64) :
    val_main_v72 (F := Ideal) x0 x1 x2 x3 x4 x5 x6 x7 x8 x9 x10 x11 (ix2 g j)
      = outR (gsrc x1) (hit x1) (hitB x2) (fun i k => x0 (ix2 i k)) (fun a k => x3 (ix2 a k)) (fun a k => x4 (ix2 a k))
          (fun a => x5 (ix1 a)) (fun a k => x6 (ix2 a k)) (fun a k => x7 (ix2 a k)) (fun a => x8 (ix1 a))
          (fun a k => x9 (ix2 a k)) (fun a k => x10 (ix2 a k)) (fun a => x11 (ix1 a)) g j := by
  rw [val_main_v72_apply, Ideal.hostDivf_def, val_main_v71_apply, val_main_v70_apply,
    show idx_main_v70 (idx_main_v71 (ix2 g j)) = ix1 g from eq_ix1 _,
    val_main_v69_apply, Ideal.maximumf_def, val_main_v68_apply, val_main_cst_10_apply, Ideal.ofBits_def, Ideal.ofBits_one_f32,
    poolCount_read, poolSum_read, layer3_read, layer2_read, layer1_read]
  rfl

end Cert.RefValue

end
-- ==== Proof.Finite.lean ====
import proofs.«425611_j42314017800422_2_alg».proof.Pre_finite_inputs
import proofs.«425611_j42314017800422_2_alg».proof.Proof.Gen.Pre_finite_inputs
import proofs.«425611_j42314017800422_2_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs Cert.Pre_finite_inputs.Gen Cert.Spec

instance : Subsingleton S_.Idx := ⟨fun a b => funext fun d => d.elim0⟩

-- |x| < +∞ leaves exactly the reals: |+∞| = |−∞| = +∞.
theorem isReal_of_abs_lt_top (x : EReal) (h : max x (-x) < ⊤) : IsReal x := by
  induction x using EReal.rec with
  | bot => simp at h
  | coe r => exact ⟨r, rfl⟩
  | top => simp at h

-- An `and` over all entries is 1 only if every compared entry is.
theorem real_of_all {s : Shape} (x : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf x) (broadcastInDim s ![] hb (constant S_ .f32 0x7F800000#32)))
        (constantI S_ 1 1#1) hr hu ix0 = 1#1) (i : s.Idx) : IsReal (x i) := by
  have e := Host.reduce_andi_all _ _ hr hu ix0 h i
  have top : Ideal.ofBits .f32 0x7F800000#32 = (⊤ : EReal) := by simp [Ideal.ofBits, Ideal.ieee]
  simp only [cmpf, Host.absf, broadcastInDim, constant, Ideal.hostAbsf_def, Ideal.cmpf_def, Ideal.absf_def, Ideal.ofBits_def,
    Ideal.cmp, top] at e
  refine isReal_of_abs_lt_top _ ?_
  by_contra hn
  simp [hn] at e

theorem real_of_pre (a0 : FVec Ideal S100000x128 .f32) (a1 : IVec S2x1600000 32) (a2 : IVec S100000 32)
    (a3 a4 : FVec Ideal S128x128 .f32) (a5 : FVec Ideal S128 .f32) (a6 a7 : FVec Ideal S64x128 .f32) (a8 : FVec Ideal S64 .f32)
    (a9 a10 : FVec Ideal S64x64 .f32) (a11 : FVec Ideal S64 .f32)
    (h : Cert.Pre_finite_inputs.fn (F := Ideal) a0 a1 a2 a3 a4 a5 a6 a7 a8 a9 a10 a11 = (fun _ => 1#1)) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ix0
  dsimp only [fn, fn_part1, fn_part2, andi] at h0
  simp only [IntOp.andi_eq_one] at h0
  obtain ⟨⟨⟨⟨⟨⟨⟨⟨⟨h0, h3⟩, h4⟩, h5⟩, h6⟩, h7⟩, h8⟩, h9⟩, h10⟩, h11⟩ := h0
  exact ⟨real_of_all _ _ _ _ h0, real_of_all _ _ _ _ h3, real_of_all _ _ _ _ h4, real_of_all _ _ _ _ h5,
    real_of_all _ _ _ _ h6, real_of_all _ _ _ _ h7, real_of_all _ _ _ _ h8, real_of_all _ _ _ _ h9,
    real_of_all _ _ _ _ h10, real_of_all _ _ _ _ h11⟩

end Cert.Finite

end
-- ==== Proof.lean ====
import proofs.«425611_j42314017800422_2_alg».proof.Defs
import proofs.«425611_j42314017800422_2_alg».proof.Proof.Gen.Kernel
import proofs.«425611_j42314017800422_2_alg».proof.Proof.Gen.KernelIdeal
import proofs.«425611_j42314017800422_2_alg».proof.Proof.Gen.ReferenceIdeal
import proofs.«425611_j42314017800422_2_alg».proof.Proof.Gen.Pre_finite_inputs
import proofs.«425611_j42314017800422_2_alg».proof.Proof.Gen.ReferenceIdeal.Run
import proofs.«425611_j42314017800422_2_alg».proof.Proof.Gen.ReferenceIdeal.Read
import proofs.«425611_j42314017800422_2_alg».proof.Proof.BRun
import proofs.«425611_j42314017800422_2_alg».proof.Proof.KRun
import proofs.«425611_j42314017800422_2_alg».proof.Proof.KValue
import proofs.«425611_j42314017800422_2_alg».proof.Proof.RefValue
import proofs.«425611_j42314017800422_2_alg».proof.Proof.Finite
import proofs.«425611_j42314017800422_2_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Reg.frame m ρ
theorem frame_ki : Cert.frame_KernelIdeal := fun m ρ _ => Cert.KernelIdeal.Reg.frame m ρ
theorem frame_ri : Cert.frame_ReferenceIdeal := fun m ρ _ =>
  (θ_run Cert.ReferenceIdeal.defs _ _).mono (fun _ h c => (h c).2) (Cert.ReferenceIdeal.Value.run (F := Ideal) m ρ)

-- Entry by entry the kernel's result is `outK` and the reference's `outR` of the same arrays; on real inputs they are equal.
theorem algebraic : Cert.algebraic_KernelIdeal_ReferenceIdeal := by
  intro m ρ m' ρ' hpre hagree
  refine ⟨_, Cert.KernelIdeal.Reg.run_result m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v72_eq]
  funext i
  obtain ⟨g, j, rfl⟩ : ∃ (g : Fin 128) (j : Fin 64), i = ix2 g j := ⟨i 0, i 1, eq_ix2 i⟩
  obtain ⟨h0, h3, h4, h5, h6, h7, h8, h9, h10, h11⟩ := Cert.Finite.real_of_pre _ _ _ _ _ _ _ _ _ _ _ _ (hpre c)
  obtain ⟨a0, a1, a2, a3, a4, a5, a6, a7, a8, a9, a10, a11⟩ := hagree c
  rw [Cert.RefValue.ref_eq, a0, a1, a2, a3, a4, a5, a6, a7, a8, a9, a10, a11]
  exact ((congrFun (congrFun (Cert.Spec.outK_eq_outR _ _ _ _ _ _ _ _ _ _ _ _ _ (fun _ _ => h0 _) (fun _ _ => h3 _) (fun _ _ => h4 _)
    (fun _ => h5 _) (fun _ _ => h6 _) (fun _ _ => h7 _) (fun _ => h8 _) (fun _ _ => h9 _) (fun _ _ => h10 _) (fun _ => h11 _)) g) j).symm.trans (Cert.KernelIdeal.Reg.kernel_eq m ρ c g j).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof
